-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S2x512x512 .f32) (main_arg5 : FVec F S2x512 .f32) (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S2x512x512 .f32 := Host.absf main_arg4
  let main_cst_6 : FVec F S_ .f32 := constant S_ .f32 0x7F800000#32
  let main_v20 : FVec F S2x512x512 .f32 := broadcastInDim S2x512x512 ![] bcast_S_S2x512x512 main_cst_6
  let main_v21 : IVec S2x512x512 1 := cmpf .olt main_v19 main_v20
  let main_c_7 : IVec S_ 1 := constantI S_ 1 1#1
  let main_v22 : IVec S_ 1 := (fun x v => Host.reduce IntOp.andi x v reducesTo_S2x512x512_S_d0_1_2 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x16384 .f32) (main_arg2 : FVec F S512x512 .f32) (main_arg3 : FVec F S512 .f32) (main_arg4 : FVec F S2x512x512 .f32) (main_arg5 : FVec F S2x512 .f32) (main_arg6 : FVec F S512x128 .f32) (main_arg7 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S_ : Shape := ⟨0, ![]⟩
abbrev S1x512 : Shape := ⟨2, ![1, 512]⟩
abbrev S2048x512 : Shape := ⟨2, ![2048, 512]⟩
abbrev S1024x1024 : Shape := ⟨2, ![1024, 1024]⟩
abbrev S1024x512 : Shape := ⟨2, ![1024, 512]⟩
abbrev S1x512x512 : Shape := ⟨3, ![1, 512, 512]⟩
abbrev S1x128 : Shape := ⟨2, ![1, 128]⟩
abbrev S16384x128 : Shape := ⟨2, ![16384, 128]⟩
abbrev S2048x128 : Shape := ⟨2, ![2048, 128]⟩

abbrev nBuf : Space → Nat
  | .hbm => 36
  | .vmem => 48
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S16384x512, .f32⟩
  | .hbm, ⟨12, _⟩ => ⟨S1x512, .f32⟩
  | .hbm, ⟨13, _⟩ => ⟨S16384x512, .f32⟩
  | .hbm, ⟨14, _⟩ => ⟨S1x512x512, .f32⟩
  | .hbm, ⟨15, _⟩ => ⟨S512x512, .f32⟩
  | .hbm, ⟨16, _⟩ => ⟨S1x512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S1x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S1x512x512, .f32⟩
  | .hbm, ⟨25, _⟩ => ⟨S512x512, .f32⟩
  | .hbm, ⟨26, _⟩ => ⟨S1x512, .f32⟩
  | .hbm, ⟨27, _⟩ => ⟨S512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S1x128, .f32⟩
  | .hbm, ⟨35, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S2048x512, .f32⟩
  | .local _ .vmem, ⟨15, _⟩ => ⟨S2048x512, .f32⟩
  | .local _ .vmem, ⟨16, _⟩ => ⟨S512x512, .f32⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | .local _ .vmem, ⟨20, _⟩ => ⟨S1024x1024, .f32⟩
  | .local _ .vmem, ⟨21, _⟩ => ⟨S1024x1024, .f32⟩
  | .local _ .vmem, ⟨22, _⟩ => ⟨S1024x512, .f32⟩
  | .local _ .vmem, ⟨23, _⟩ => ⟨S1024x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S2048x512, .f32⟩
  | .local _ .vmem, ⟨29, _⟩ => ⟨S2048x512, .f32⟩
  | .local _ .vmem, ⟨30, _⟩ => ⟨S512x512, .f32⟩
  | .local _ .vmem, ⟨31, _⟩ => ⟨S1x512, .f32⟩
  | .local _ .vmem, ⟨32, _⟩ => ⟨S2048x512, .f32⟩
  | .local _ .vmem, ⟨33, _⟩ => ⟨S2048x512, .f32⟩
  | .local _ .vmem, ⟨34, _⟩ => ⟨S1024x1024, .f32⟩
  | .local _ .vmem, ⟨35, _⟩ => ⟨S1024x1024, .f32⟩
  | .local _ .vmem, ⟨36, _⟩ => ⟨S1024x512, .f32⟩
  | .local _ .vmem, ⟨37, _⟩ => ⟨S1024x512, .f32⟩
  | .local _ .vmem, ⟨38, _⟩ => ⟨S1x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S2048x512, .f32⟩
  | .local _ .vmem, ⟨43, _⟩ => ⟨S2048x512, .f32⟩
  | .local _ .vmem, ⟨44, _⟩ => ⟨S512x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 16], ![false, false]⟩

def k3_cond2 (i : grid3.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![16, 16], ![false, false]⟩

def k5_cond2 (i : grid5.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S512 : S_.BroadcastsInDim S512 (![] : Fin 0 → Fin S512.rank)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  broadcasts_S1x512_S1024x512 : S1x512.Broadcasts S1024x512
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  shapeCasts_S2048x512_S2048x512 : S2048x512.ShapeCasts S2048x512
  shapeCasts_S512x512_S512x512 : S512x512.ShapeCasts S512x512
  slices_S2x512x512_S1x512x512_1_0_0 : S2x512x512.Slices ![1, 0, 0] S1x512x512
  slices_S2x512_S1x512_1_0 : S2x512.Slices ![1, 0] S1x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x512_S512x512_S2048x512_1_0_0_1_n_n_wf : DotDims.WF S2048x512 S512x512 S2048x512 [1] [0] [0] [1] [] []
  dot_S1024x1024_S1024x512_S1024x512_1_0_0_1_n_n_wf : DotDims.WF S1024x1024 S1024x512 S1024x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x16384.size a
  hwx1_0 : ∀ i : grid1.Coords, EltTy.bits .f32 = 32 ∨ (Rect.block (s := S16384x16384) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S16384x512.size a
  hwx1_3 : ∀ i : grid1.Coords, EltTy.bits .f32 = 32 ∨ (Rect.block (s := S16384x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S16384x512.size a
  hwx2_3 : ∀ i : grid2.Coords, EltTy.bits .f32 = 32 ∨ (Rect.block (s := S16384x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x16384.size a
  hwx3_0 : ∀ i : grid3.Coords, EltTy.bits .f32 = 32 ∨ (Rect.block (s := S16384x16384) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S16384x512.size a
  hwx3_1 : ∀ i : grid3.Coords, EltTy.bits .f32 = 32 ∨ (Rect.block (s := S16384x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S16384x512.size a
  hwx3_3 : ∀ i : grid3.Coords, EltTy.bits .f32 = 32 ∨ (Rect.block (s := S16384x512) S1024x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S16384x512.size a
  hwx4_0 : ∀ i : grid4.Coords, EltTy.bits .f32 = 32 ∨ (Rect.block (s := S16384x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S16384x512.size a
  hwx4_3 : ∀ i : grid4.Coords, EltTy.bits .f32 = 32 ∨ (Rect.block (s := S16384x512) S2048x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S16384x16384.size a
  hwx5_0 : ∀ i : grid5.Coords, EltTy.bits .f32 = 32 ∨ (Rect.block (s := S16384x16384) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S16384x512.size a
  hwx5_1 : ∀ i : grid5.Coords, EltTy.bits .f32 = 32 ∨ (Rect.block (s := S16384x512) S1024x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S16384x512.size a
  hwx5_3 : ∀ i : grid5.Coords, EltTy.bits .f32 = 32 ∨ (Rect.block (s := S16384x512) S1024x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x512.size a ≤ S16384x512.size a
  hwx6_0 : ∀ i : grid6.Coords, EltTy.bits .f32 = 32 ∨ (Rect.block (s := S16384x512) S2048x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .f32 = 32 ∨ (Rect.block (s := S512x128) S512x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x128.size a ≤ S16384x128.size a
  hwx6_3 : ∀ i : grid6.Coords, EltTy.bits .f32 = 32 ∨ (Rect.block (s := S16384x128) S2048x128.size (cc6_transform_3 i) (hinb6_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v13) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S2048x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v22) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v22) S2048x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v23) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v24) S2048x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S2x512x512 : Shape := ⟨3, ![2, 512, 512]⟩
abbrev S2x512 : Shape := ⟨2, ![2, 512]⟩
abbrev S512x128 : Shape := ⟨2, ![512, 128]⟩
abbrev S128 : Shape := ⟨1, ![128]⟩
abbrev S1x512 : Shape := ⟨2, ![1, 512]⟩
abbrev S_ : Shape := ⟨0, ![]⟩
abbrev S1x512x512 : Shape := ⟨3, ![1, 512, 512]⟩
abbrev S16384x128 : Shape := ⟨2, ![16384, 128]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S2x512x512, .f32⟩
  | .hbm, ⟨5, _⟩ => ⟨S2x512, .f32⟩
  | .hbm, ⟨6, _⟩ => ⟨S512x128, .f32⟩
  | .hbm, ⟨7, _⟩ => ⟨S128, .f32⟩
  | .hbm, ⟨8, _⟩ => ⟨S16384x512, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S1x512x512, .f32⟩
  | .hbm, ⟨17, _⟩ => ⟨S512x512, .f32⟩
  | .hbm, ⟨18, _⟩ => ⟨S1x512, .f32⟩
  | .hbm, ⟨19, _⟩ => ⟨S512, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S1x512, .f32⟩
  | .hbm, ⟨31, _⟩ => ⟨S512, .f32⟩
  | .hbm, ⟨32, _⟩ => ⟨S16384x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x128, .f32⟩
  | .hbm, ⟨41, _⟩ => ⟨S1x128, .f32⟩
  | .hbm, ⟨42, _⟩ => ⟨S16384x128, .f32⟩
  | .hbm, ⟨43, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  slices_S2x512x512_S1x512x512_1_0_0 : S2x512x512.Slices ![1, 0, 0] S1x512x512
  slices_S2x512_S1x512_1_0 : S2x512.Slices ![1, 0] S1x512
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x512_S512x512_S16384x512_1_0_0_1_n_n_wf : DotDims.WF S16384x512 S512x512 S16384x512 [1] [0] [0] [1] [] []
  dot_S16384x16384_S16384x512_S16384x512_1_0_0_1_n_n_wf : DotDims.WF S16384x16384 S16384x512 S16384x512 [1] [0] [0] [1] [] []
  dot_S16384x512_S512x128_S16384x128_1_0_0_1_n_n_wf : DotDims.WF S16384x512 S512x128 S16384x128 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf

class Facts : Prop extends Facts₀ where

variable [Facts]
-- ==== Proof.Dense0.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev SX0 : Shape := S2048x512
abbrev SW0 : Shape := S512x512
abbrev SB0 : Shape := S1x512
abbrev SO0 : Shape := S2048x512

abbrev rX0 : Rect SX0 := Rect.unit (s := S2048x512) ![0, 0] S2048x512.size inb_S2048x512_S2048x512_0_0
abbrev rW0 : Rect SW0 := Rect.unit (s := S512x512) ![0, 0] S512x512.size inb_S512x512_S512x512_0_0
abbrev rB0 : Rect SB0 := Rect.unit (s := S1x512) ![0, 0] S1x512.size inb_S1x512_S1x512_0_0
abbrev rO0 : Rect SO0 := Rect.unit (s := S2048x512) ![0, 0] S2048x512.size inb_S2048x512_S2048x512_0_0

def out0_3 (x0 : Vec F SX0 .f32) (x1 : Vec F SW0 .f32) (x2 : Vec F SB0 .f32) : Vec F SO0 .f32 :=
  View.canon [⟨rO0, k0_pay1 (View.ld x0 rX0) (View.ld x1 rW0) (View.ld x2 rB0)⟩]

theorem cover0_3 (p0 : Vec F SO0 .f32) (y : SO0.Idx) :
    ∃ pc ∈ ([⟨rO0, p0⟩] : List (View.Piece (Elt F) SO0 .f32)), y ∈ pc.1.set :=
  View.cover_of_tiled [⟨rO0, p0⟩] SO0.size (by rfl) y

-- The dense body on whole blocks: the inputs are read and kept, the output block becomes `x · w + b`.
set_option maxHeartbeats 1000000 in

theorem sound_kernel0 (c : Dev nD) (E : Set ℕ) (i : grid0.Coords)
    (arg1 : Memref sig .tc .vmem SX0 .f32) (harg1 : arg1.IsWhole) (arg2 : Memref sig .tc .vmem SW0 .f32) (harg2 : arg2.IsWhole)
    (arg3 : Memref sig .tc .vmem SB0 .f32) (harg3 : arg3.IsWhole) (arg4 : Memref sig .tc .vmem SO0 .f32) (harg4 : arg4.IsWhole)
    (x0 : Vec F SX0 .f32) (x1 : Vec F SW0 .f32) (x2 : Vec F SB0 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_kernel i arg1 harg1 arg2 harg2 arg3 harg3 arg4 harg4) K := by
  simp only [cc0__dense_kernel_eq_skeleton]; unfold cc0__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Dense2.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev SX2 : Shape := S2048x512
abbrev SW2 : Shape := S512x512
abbrev SB2 : Shape := S1x512
abbrev SO2 : Shape := S2048x512

abbrev rX2 : Rect SX2 := Rect.unit (s := S2048x512) ![0, 0] S2048x512.size inb_S2048x512_S2048x512_0_0
abbrev rW2 : Rect SW2 := Rect.unit (s := S512x512) ![0, 0] S512x512.size inb_S512x512_S512x512_0_0
abbrev rB2 : Rect SB2 := Rect.unit (s := S1x512) ![0, 0] S1x512.size inb_S1x512_S1x512_0_0
abbrev rO2 : Rect SO2 := Rect.unit (s := S2048x512) ![0, 0] S2048x512.size inb_S2048x512_S2048x512_0_0

def out2_3 (x0 : Vec F SX2 .f32) (x1 : Vec F SW2 .f32) (x2 : Vec F SB2 .f32) : Vec F SO2 .f32 :=
  View.canon [⟨rO2, k2_pay1 (View.ld x0 rX2) (View.ld x1 rW2) (View.ld x2 rB2)⟩]

theorem cover2_3 (p0 : Vec F SO2 .f32) (y : SO2.Idx) :
    ∃ pc ∈ ([⟨rO2, p0⟩] : List (View.Piece (Elt F) SO2 .f32)), y ∈ pc.1.set :=
  View.cover_of_tiled [⟨rO2, p0⟩] SO2.size (by rfl) y

set_option maxHeartbeats 1000000 in

theorem sound_kernel2 (c : Dev nD) (E : Set ℕ) (i : grid2.Coords)
    (arg1 : Memref sig .tc .vmem SX2 .f32) (harg1 : arg1.IsWhole) (arg2 : Memref sig .tc .vmem SW2 .f32) (harg2 : arg2.IsWhole)
    (arg3 : Memref sig .tc .vmem SB2 .f32) (harg3 : arg3.IsWhole) (arg4 : Memref sig .tc .vmem SO2 .f32) (harg4 : arg4.IsWhole)
    (x0 : Vec F SX2 .f32) (x1 : Vec F SW2 .f32) (x2 : Vec F SB2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_kernel i arg1 harg1 arg2 harg2 arg3 harg3 arg4 harg4) K := by
  simp only [cc2__dense_kernel_eq_skeleton]; unfold cc2__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Dense4.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Dense2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out2_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out2_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel2 c Set.univ (grid4.coords t) _ _ _ _ _ _ _ _ (iblk4 V c 0 t) (iblk4 V c 1 t) (iblk4 V c 2 t) _)
  all_goals try first | exact hstage4_0 _ | exact hstage4_1 _ | exact hstage4_2 _ | exact hstage4_3 _
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Dense6.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev SX6 : Shape := S2048x512
abbrev SW6 : Shape := S512x128
abbrev SB6 : Shape := S1x128
abbrev SO6 : Shape := S2048x128

abbrev rX6 : Rect SX6 := Rect.unit (s := S2048x512) ![0, 0] S2048x512.size inb_S2048x512_S2048x512_0_0
abbrev rW6 : Rect SW6 := Rect.unit (s := S512x128) ![0, 0] S512x128.size inb_S512x128_S512x128_0_0
abbrev rB6 : Rect SB6 := Rect.unit (s := S1x128) ![0, 0] S1x128.size inb_S1x128_S1x128_0_0
abbrev rO6 : Rect SO6 := Rect.unit (s := S2048x128) ![0, 0] S2048x128.size inb_S2048x128_S2048x128_0_0

def out6_3 (x0 : Vec F SX6 .f32) (x1 : Vec F SW6 .f32) (x2 : Vec F SB6 .f32) : Vec F SO6 .f32 :=
  View.canon [⟨rO6, k6_pay1 (View.ld x0 rX6) (View.ld x1 rW6) (View.ld x2 rB6)⟩]

theorem cover6_3 (p0 : Vec F SO6 .f32) (y : SO6.Idx) :
    ∃ pc ∈ ([⟨rO6, p0⟩] : List (View.Piece (Elt F) SO6 .f32)), y ∈ pc.1.set :=
  View.cover_of_tiled [⟨rO6, p0⟩] SO6.size (by rfl) y

set_option maxHeartbeats 1000000 in

theorem sound_kernel6 (c : Dev nD) (E : Set ℕ) (i : grid6.Coords)
    (arg1 : Memref sig .tc .vmem SX6 .f32) (harg1 : arg1.IsWhole) (arg2 : Memref sig .tc .vmem SW6 .f32) (harg2 : arg2.IsWhole)
    (arg3 : Memref sig .tc .vmem SB6 .f32) (harg3 : arg3.IsWhole) (arg4 : Memref sig .tc .vmem SO6 .f32) (harg4 : arg4.IsWhole)
    (x0 : Vec F SX6 .f32) (x1 : Vec F SW6 .f32) (x2 : Vec F SB6 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Reduce1Runs.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev VO1_3 : View sig .tc .vmem S1024x512 .f32 := (Memref.whole cc1_stg3_0 : Memref sig .tc .vmem S1024x512 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x512 .f32 := Memref.whole cc1_scratch0
abbrev VS1_0 : View sig .tc .vmem S1024x512 .f32 := scM1_0.view

abbrev RB1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ RB1 c) ∗ (∃ r, prngReg c r)) := by
  unfold Pipeline.ΦA; rw [scopedRest1_split]; simp only [scM1_0, owns_whole]; try rfl

-- The body run symbolically at a first, a middle and a last step of a row block's reduction: what each stores, as pieces.
section
variable (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)

set_option maxHeartbeats 1000000 in

noncomputable def kernelRun1_A (hc0 : cond1_0 i) (hc1 : ¬cond1_1 i)
    (x0 : Vec F S1024x1024 .f32) (x1 : Vec F S1024x512 .f32) (x2 : Vec F S1x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in

noncomputable def kernelRun1_B (hc0 : ¬cond1_0 i) (hc1 : ¬cond1_1 i)
    (x0 : Vec F S1024x1024 .f32) (x1 : Vec F S1024x512 .f32) (x2 : Vec F S1x512 .f32) (xs0 : Vec F S1024x512 .f32) :
    Σ' (L3 : List (View.Piece (Elt F) S1024x512 .f32)), { LS0 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨[], ?_, fun xi3 E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in

noncomputable def kernelRun1_C (hc0 : ¬cond1_0 i) (hc1 : cond1_1 i)
    (x0 : Vec F S1024x1024 .f32) (x1 : Vec F S1024x512 .f32) (x2 : Vec F S1x512 .f32) (xs0 : Vec F S1024x512 .f32) :
    Σ' (L3 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gc_reduce_kernel i arg2 harg2 arg3 harg3 arg4 harg4 arg5 harg5 arg6 harg6) K } := by
  refine ⟨?_, ?_, fun E K => ?run⟩
  case run =>
    simp only [cc1__gc_reduce_kernel_eq_skeleton]; unfold cc1__gc_reduce_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end Cert.KernelIdeal.Hand

end
-- ==== Proof.Reduce1.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Reduce1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (VS : View sig .tc .vmem S1024x512 .f32) (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)

theorem scover1_A_0 (hc0 : cond1_0 i) (hc1 : ¬cond1_1 i) (x0 : Vec F S1024x1024 .f32) (x1 : Vec F S1024x512 .f32) (x2 : Vec F S1x512 .f32) (y : S1024x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x512.size (by sl_kernel_rfl) y

def sout1_A_0 (hc0 : cond1_0 i) (hc1 : ¬cond1_1 i) (x0 : Vec F S1024x1024 .f32) (x1 : Vec F S1024x512 .f32) (x2 : Vec F S1x512 .f32) : Vec F S1024x512 .f32 :=
  VS.read (Elt F) (VS.writes (Elt F) VS.junk (kernelRun1_A c i arg2 harg2 arg3 harg3 arg4 harg4 arg5 harg5 arg6 harg6 hc0 hc1 x0 x1 x2).2.1)

theorem scover1_B_0 (hc0 : ¬cond1_0 i) (hc1 : ¬cond1_1 i) (x0 : Vec F S1024x1024 .f32) (x1 : Vec F S1024x512 .f32) (x2 : Vec F S1x512 .f32) (xs0 : Vec F S1024x512 .f32) (y : S1024x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x512.size (by sl_kernel_rfl) y

def sout1_B_0 (hc0 : ¬cond1_0 i) (hc1 : ¬cond1_1 i) (x0 : Vec F S1024x1024 .f32) (x1 : Vec F S1024x512 .f32) (x2 : Vec F S1x512 .f32) (xs0 : Vec F S1024x512 .f32) : Vec F S1024x512 .f32 :=
  VS.read (Elt F) (VS.writes (Elt F) VS.junk (kernelRun1_B c i arg2 harg2 arg3 harg3 arg4 harg4 arg5 harg5 arg6 harg6 hc0 hc1 x0 x1 x2 xs0).2.1)

theorem cover1_C_3 (hc0 : ¬cond1_0 i) (hc1 : cond1_1 i) (x0 : Vec F S1024x1024 .f32) (x1 : Vec F S1024x512 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x512.size (by sl_kernel_rfl) y

def out1_C_3 (hc0 : ¬cond1_0 i) (hc1 : cond1_1 i) (x0 : Vec F S1024x1024 .f32) (x1 : Vec F S1024x512 .f32) (x2 : Vec F S1x512 .f32) (xs0 : Vec F S1024x512 .f32) : Vec F S1024x512 .f32 :=
  VS.read (Elt F) (VS.writes (Elt F) VS.junk (kernelRun1_C c i arg2 harg2 arg3 harg3 arg4 harg4 arg5 harg5 arg6 harg6 hc0 hc1 x0 x1 x2 xs0).1)
theorem scover1_C_0 (hc0 : ¬cond1_0 i) (hc1 : cond1_1 i) (x0 : Vec F S1024x1024 .f32) (x1 : Vec F S1024x512 .f32) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x512.size (by sl_kernel_rfl) y

def sout1_C_0 (hc0 : ¬cond1_0 i) (hc1 : cond1_1 i) (x0 : Vec F S1024x1024 .f32) (x1 : Vec F S1024x512 .f32) (x2 : Vec F S1x512 .f32) (xs0 : Vec F S1024x512 .f32) : Vec F S1024x512 .f32 :=
  VS.read (Elt F) (VS.writes (Elt F) VS.junk (kernelRun1_C c i arg2 harg2 arg3 harg3 arg4 harg4 arg5 harg5 arg6 harg6 hc0 hc1 x0 x1 x2 xs0).2.1)

end

def idleOut1 : Vec F S1024x512 .f32 := VO1_3.read (Elt F) VO1_3.junk

theorem notFirst1 {n : ℕ} (h : n % 16 = 15) : ¬ n % 16 = 0 := by omega

-- The output block and the accumulator after point `n`, by recursion on `n` over the three cases.
def outsAt1 (c : Dev nD) : (n : ℕ) → n < cfg1.N → Vec F S1024x512 .f32 × Vec F S1024x512 .f32
  | 0, hn => (idleOut1, sout1_A_0 VS1_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _)
      ((hcond1_0 ⟨0, hn⟩).mpr (Nat.zero_mod _)) (fun h => (fun h => by (try dsimp only at h); omega) ((hcond1_1 ⟨0, hn⟩).mp h))
      (iblk1 V c 0 ⟨0, hn⟩) (iblk1 V c 1 ⟨0, hn⟩) (iblk1 V c 2 ⟨0, hn⟩))
  | n + 1, hn =>
    if h1 : (n + 1) % 16 = 15 then
      (out1_C_3 VO1_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => notFirst1 h1 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (outsAt1 c n (Nat.lt_of_succ_lt hn)).2,
       sout1_C_0 VS1_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => notFirst1 h1 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩) (outsAt1 c n (Nat.lt_of_succ_lt hn)).2)
    else if h0 : (n + 1) % 16 = 0 then
      (idleOut1, sout1_A_0 VS1_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          ((hcond1_0 ⟨n + 1, hn⟩).mpr h0) (fun h => h1 ((hcond1_1 ⟨n + 1, hn⟩).mp h))
          (iblk1 V c 0 ⟨n + 1, hn⟩) (iblk1 V c 1 ⟨n + 1, hn⟩) (iblk1 V c 2 ⟨n + 1, hn⟩))
    else
      (idleOut1, sout1_B_0 VS1_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _)
          (fun h => h0 ((hcond1_0 ⟨n + 1, hn⟩).mp h)) (fun h => h1 ((hcond1_1 ⟨n + 1, hn⟩).mp h))
          (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, sout1_A_0 VS1_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_neg h1).trans ((dif_pos h0).trans rfl)

theorem outsAt1_B (c : Dev nD) (t : Fin cfg1.N) (h0 : ¬t.val % 16 = 0) (h1 : ¬t.val % 16 = 15) :
    outsAt1 V c t.val t.isLt = (idleOut1, sout1_B_0 VS1_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt1_C (c : Dev nD) (t : Fin cfg1.N) (h0 : ¬t.val % 16 = 0) (h1 : t.val % 16 = 15) :
    outsAt1 V c t.val t.isLt = (out1_C_3 VO1_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t)
        (outsAt1 V c (t.val - 1) (Nat.lt_of_le_of_lt (Nat.sub_le _ _) t.isLt)).2,
      sout1_C_0 VS1_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t)
        (outsAt1 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ RB1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ RB1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ RB1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 256 := lt_of_lt_of_eq t.isLt (show cfg1.N = 256 from N_1)
  by_cases h1 : t.val % 16 = 15
  · have h0 : ¬ t.val % 16 = 0 := notFirst1 h1
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_3 sout1_C_0; (try dsimp only)
    rw [PhiS1_castSucc V c t, PhiS1_pos V c _ _ hz]
    iintro ⟨⟨⟨HS0, HRB⟩, Hg⟩, Ho, ⟨%d0, H0⟩, ⟨%d1, H1⟩, ⟨%d2, H2⟩, ⟨%d3, H3⟩⟩
    iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HRB Hg]
    · isplitl [HS0 HRB]
      · isplitl [HS0]
        · unfold owns; iexists _; isplitr
          swap; · iexact HS0
          ipureintro; exact View.read_writes_of_cover _ _ _ _ _ (scover1_C_0 c _ _ _ _ _ _ _ _ _ _ _ _ _ _ _ _ _)
        iexact HRB
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 16 = 0
    · rw [outsAt1_A V c t h0 h1]
      unfold sout1_A_0; (try dsimp only)
      by_cases hz : t.val = 0
      · rw [PhiS1_castSucc V c t, PhiS1_zero V c _ _ hz, PhiA1_eq]
        iintro ⟨⟨⟨HS0, HRB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HRB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [outsAt1_B V c t h0 h1]
      unfold sout1_B_0; (try dsimp only)
      rw [PhiS1_castSucc V c t, PhiS1_pos V c _ _ hz]
      iintro ⟨⟨⟨HS0, HRB⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRB Hg]
      · isplitl [HS0 HRB]
        · isplitl [HS0]
          · unfold owns; iexists _; isplitr
            swap; · iexact HS0
            ipureintro; exact View.read_writes_of_cover _ _ _ _ _ (scover1_B_0 c _ _ _ _ _ _ _ _ _ _ _ _ _ _ _ _ _)
          iexact HRB
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HRB⟩, Hg⟩
  isplitl [HS0 HRB]
  · isplitl [HS0]; · iexists _; iexact HS0
    iexact HRB
  iexact Hg

end Cert.KernelIdeal.Hand

end
-- ==== Proof.Reduce3Runs.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Reduce1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

abbrev VO3_3 : View sig .tc .vmem S1024x512 .f32 := (Memref.whole cc3_stg3_0 : Memref sig .tc .vmem S1024x512 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)

abbrev scM3_0 : Memref sig .tc .vmem S1024x512 .f32 := Memref.whole cc3_scratch0
abbrev VS3_0 : View sig .tc .vmem S1024x512 .f32 := scM3_0.view

abbrev RB3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ RB3 c) ∗ (∃ r, prngReg c r)) := by
  unfold Pipeline.ΦA; rw [scopedRest3_split]; simp only [scM3_0, owns_whole]; try rfl

end Cert.KernelIdeal.Hand

end
-- ==== Proof.Reduce3.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Reduce3Runs
import proofs.«149749_j996432413323_1_alg».proof.Proof.Reduce1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut3 : Vec F S1024x512 .f32 := VO3_3.read (Elt F) VO3_3.junk

theorem notFirst3 {n : ℕ} (h : n % 16 = 15) : ¬ n % 16 = 0 := by omega

-- The output block and the accumulator after point `n`, by recursion on `n` over the three cases.
def outsAt3 (c : Dev nD) : (n : ℕ) → n < cfg3.N → Vec F S1024x512 .f32 × Vec F S1024x512 .f32
  | 0, hn => (idleOut3, sout1_A_0 VS3_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _)
      ((hcond3_0 ⟨0, hn⟩).mpr (Nat.zero_mod _)) (fun h => (fun h => by (try dsimp only at h); omega) ((hcond3_1 ⟨0, hn⟩).mp h))
      (iblk3 V c 0 ⟨0, hn⟩) (iblk3 V c 1 ⟨0, hn⟩) (iblk3 V c 2 ⟨0, hn⟩))
  | n + 1, hn =>
    if h1 : (n + 1) % 16 = 15 then
      (out1_C_3 VO3_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _)
          (fun h => notFirst3 h1 ((hcond3_0 ⟨n + 1, hn⟩).mp h)) ((hcond3_1 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2,
       sout1_C_0 VS3_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _)
          (fun h => notFirst3 h1 ((hcond3_0 ⟨n + 1, hn⟩).mp h)) ((hcond3_1 ⟨n + 1, hn⟩).mpr h1)
          (iblk3 V c 0 ⟨n + 1, hn⟩) (iblk3 V c 1 ⟨n + 1, hn⟩) (iblk3 V c 2 ⟨n + 1, hn⟩) (outsAt3 c n (Nat.lt_of_succ_lt hn)).2)
    else if h0 : (n + 1) % 16 = 0 then
      (idleOut3, sout1_A_0 VS3_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _)
          ((hcond3_0 ⟨n + 1, hn⟩).mpr h0) (fun h => h1 ((hcond3_1 ⟨n + 1, hn⟩).mp h))
          (iblk3 V c 0 ⟨n + 1, hn⟩) (iblk3 V c 1 ⟨n + 1, hn⟩) (iblk3 V c 2 ⟨n + 1, hn⟩))
    else
      (idleOut3, sout1_B_0 VS3_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _)
          (fun h => h0 ((hcond3_0 ⟨n + 1, hn⟩).mp h)) (fun h => h1 ((hcond3_1 ⟨n + 1, hn⟩).mp h))
          (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 16 = 0) (h1 : ¬t.val % 16 = 15) :
    outsAt3 V c t.val t.isLt = (idleOut3, sout1_A_0 VS3_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_neg h1).trans ((dif_pos h0).trans rfl)

theorem outsAt3_B (c : Dev nD) (t : Fin cfg3.N) (h0 : ¬t.val % 16 = 0) (h1 : ¬t.val % 16 = 15) :
    outsAt3 V c t.val t.isLt = (idleOut3, sout1_B_0 VS3_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t)
      (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt3_C (c : Dev nD) (t : Fin cfg3.N) (h0 : ¬t.val % 16 = 0) (h1 : t.val % 16 = 15) :
    outsAt3 V c t.val t.isLt = (out1_C_3 VO3_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t)
        (outsAt3 V c (t.val - 1) (Nat.lt_of_le_of_lt (Nat.sub_le _ _) t.isLt)).2,
      sout1_C_0 VS3_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t)
        (outsAt3 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ RB3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3_0 fullShare ((outsAt3 V c n hn).2) ∗ RB3 c) ∗ (∃ r, prngReg c r)) := rfl
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ RB3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 256 := lt_of_lt_of_eq t.isLt (show cfg3.N = 256 from N_3)
  by_cases h1 : t.val % 16 = 15
  · have h0 : ¬ t.val % 16 = 0 := notFirst3 h1
    have hz : t.val ≠ 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [outsAt3_C V c t h0 h1]
    unfold out1_C_3 sout1_C_0; (try dsimp only)
    rw [PhiS3_castSucc V c t, PhiS3_pos V c _ _ hz]
    iintro ⟨⟨⟨HS0, HRB⟩, Hg⟩, Ho, ⟨%d0, H0⟩, ⟨%d1, H1⟩, ⟨%d2, H2⟩, ⟨%d3, H3⟩⟩
    iapply ((kernelRun1_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HRB Hg]
    · isplitl [HS0 HRB]
      · isplitl [HS0]
        · unfold owns; iexists _; isplitr
          swap; · iexact HS0
          ipureintro; exact View.read_writes_of_cover _ _ _ _ _ (scover1_C_0 c _ _ _ _ _ _ _ _ _ _ _ _ _ _ _ _ _)
        iexact HRB
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat3 V c) 3 t (idleAt3_3 t (fun h => h1 ((hcond3_1 t).mp h))) (noFlush3_3 t (fun h => h1 ((hcond3_1 t).mp h)))]
    by_cases h0 : t.val % 16 = 0
    · rw [outsAt3_A V c t h0 h1]
      unfold sout1_A_0; (try dsimp only)
      by_cases hz : t.val = 0
      · rw [PhiS3_castSucc V c t, PhiS3_zero V c _ _ hz, PhiA3_eq]
        iintro ⟨⟨⟨HS0, HRB⟩, Hg⟩, Ho, ⟨%d0, H0⟩, ⟨%d1, H1⟩, ⟨%d2, H2⟩, ⟨%d3, H3⟩⟩
        iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HRB⟩, Hg⟩, Ho, ⟨%d0, H0⟩, ⟨%d1, H1⟩, ⟨%d2, H2⟩, ⟨%d3, H3⟩⟩
        iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [outsAt3_B V c t h0 h1]
      unfold sout1_B_0; (try dsimp only)
      rw [PhiS3_castSucc V c t, PhiS3_pos V c _ _ hz]
      iintro ⟨⟨⟨HS0, HRB⟩, Hg⟩, Ho, ⟨%d0, H0⟩, ⟨%d1, H1⟩, ⟨%d2, H2⟩, ⟨%d3, H3⟩⟩
      iapply ((kernelRun1_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRB Hg]
      · isplitl [HS0 HRB]
        · isplitl [HS0]
          · unfold owns; iexists _; isplitr
            swap; · iexact HS0
            ipureintro; exact View.read_writes_of_cover _ _ _ _ _ (scover1_B_0 c _ _ _ _ _ _ _ _ _ _ _ _ _ _ _ _ _)
          iexact HRB
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have ht : (Fin.last cfg3.N).val ≠ 0 := by rw [Fin.val_last]; have : cfg3.N = 256 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HRB⟩, Hg⟩
  isplitl [HS0 HRB]
  · isplitl [HS0]; · iexists _; iexact HS0
    iexact HRB
  iexact Hg

end Cert.KernelIdeal.Hand

end
-- ==== Proof.Reduce5Runs.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Reduce1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 16 = 0 :=
  (by decide +kernel : ∀ t : Fin grid5.N, cond5_0 (grid5.coords t) ↔ t.val % 16 = 0)

abbrev cond5_1 (i : grid5.Coords) : Prop := k5_cond2 i = 1#1
theorem hcond5_1 : ∀ t : Fin cfg5.N, cond5_1 (grid5.coords t) ↔ t.val % 16 = 15 :=
  (by decide +kernel : ∀ t : Fin grid5.N, cond5_1 (grid5.coords t) ↔ t.val % 16 = 15)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

abbrev VO5_3 : View sig .tc .vmem S1024x512 .f32 := (Memref.whole cc5_stg3_0 : Memref sig .tc .vmem S1024x512 .f32).view
abbrev ms5_0 (t : Fin cfg5.N) : Memref sig .tc .vmem S1024x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x512 .f32 := win5_3.stage (cfg5.slots t 3)
abbrev hs5_3 (t : Fin cfg5.N) : (ms5_3 t).IsWhole := hstage5_3 ((cfg5.slots t 3).cast nbuf5_3)

abbrev scM5_0 : Memref sig .tc .vmem S1024x512 .f32 := Memref.whole cc5_scratch0
abbrev VS5_0 : View sig .tc .vmem S1024x512 .f32 := scM5_0.view

abbrev RB5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ RB5 c) ∗ (∃ r, prngReg c r)) := by
  unfold Pipeline.ΦA; rw [scopedRest5_split]; simp only [scM5_0, owns_whole]; try rfl

end Cert.KernelIdeal.Hand

end
-- ==== Proof.Reduce5.lean ====
import proofs.«149749_j996432413323_1_alg».proof.Proof.Gen.KernelIdeal.Launch
import proofs.«149749_j996432413323_1_alg».proof.Proof.Gen.KernelIdeal.Skeleton
import proofs.«149749_j996432413323_1_alg».proof.Proof.Gen.KernelIdeal.Points
import proofs.«149749_j996432413323_1_alg».proof.Proof.Reduce5Runs
import proofs.«149749_j996432413323_1_alg».proof.Proof.Reduce1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut5 : Vec F S1024x512 .f32 := VO5_3.read (Elt F) VO5_3.junk

theorem notFirst5 {n : ℕ} (h : n % 16 = 15) : ¬ n % 16 = 0 := by omega

-- The output block and the accumulator after point `n`, by recursion on `n` over the three cases.
def outsAt5 (c : Dev nD) : (n : ℕ) → n < cfg5.N → Vec F S1024x512 .f32 × Vec F S1024x512 .f32
  | 0, hn => (idleOut5, sout1_A_0 VS5_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _)
      ((hcond5_0 ⟨0, hn⟩).mpr (Nat.zero_mod _)) (fun h => (fun h => by (try dsimp only at h); omega) ((hcond5_1 ⟨0, hn⟩).mp h))
      (iblk5 V c 0 ⟨0, hn⟩) (iblk5 V c 1 ⟨0, hn⟩) (iblk5 V c 2 ⟨0, hn⟩))
  | n + 1, hn =>
    if h1 : (n + 1) % 16 = 15 then
      (out1_C_3 VO5_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _)
          (fun h => notFirst5 h1 ((hcond5_0 ⟨n + 1, hn⟩).mp h)) ((hcond5_1 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2,
       sout1_C_0 VS5_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _)
          (fun h => notFirst5 h1 ((hcond5_0 ⟨n + 1, hn⟩).mp h)) ((hcond5_1 ⟨n + 1, hn⟩).mpr h1)
          (iblk5 V c 0 ⟨n + 1, hn⟩) (iblk5 V c 1 ⟨n + 1, hn⟩) (iblk5 V c 2 ⟨n + 1, hn⟩) (outsAt5 c n (Nat.lt_of_succ_lt hn)).2)
    else if h0 : (n + 1) % 16 = 0 then
      (idleOut5, sout1_A_0 VS5_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _)
          ((hcond5_0 ⟨n + 1, hn⟩).mpr h0) (fun h => h1 ((hcond5_1 ⟨n + 1, hn⟩).mp h))
          (iblk5 V c 0 ⟨n + 1, hn⟩) (iblk5 V c 1 ⟨n + 1, hn⟩) (iblk5 V c 2 ⟨n + 1, hn⟩))
    else
      (idleOut5, sout1_B_0 VS5_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _)
          (fun h => h0 ((hcond5_0 ⟨n + 1, hn⟩).mp h)) (fun h => h1 ((hcond5_1 ⟨n + 1, hn⟩).mp h))
          (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 16 = 0) (h1 : ¬t.val % 16 = 15) :
    outsAt5 V c t.val t.isLt = (idleOut5, sout1_A_0 VS5_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_neg h1).trans ((dif_pos h0).trans rfl)

theorem outsAt5_B (c : Dev nD) (t : Fin cfg5.N) (h0 : ¬t.val % 16 = 0) (h1 : ¬t.val % 16 = 15) :
    outsAt5 V c t.val t.isLt = (idleOut5, sout1_B_0 VS5_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t)
      (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt5_C (c : Dev nD) (t : Fin cfg5.N) (h0 : ¬t.val % 16 = 0) (h1 : t.val % 16 = 15) :
    outsAt5 V c t.val t.isLt = (out1_C_3 VO5_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t)
        (outsAt5 V c (t.val - 1) (Nat.lt_of_le_of_lt (Nat.sub_le _ _) t.isLt)).2,
      sout1_C_0 VS5_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t)
        (outsAt5 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ RB5 c) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5_0 fullShare ((outsAt5 V c n hn).2) ∗ RB5 c) ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ RB5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

theorem leaves5_0 (c : Dev nD) (t : Fin cfg5.N) : (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) : (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) : (dat5 V c).leavesExact 2 t = owns (c : Thread nD τ) (ms5_2 t) fullShare (iblk5 V c 2 t) := by
  unfold Dat.leavesExact; rw [liveAt5_2 t, after5_2]

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2]
  have hN : t.val < 256 := lt_of_lt_of_eq t.isLt (show cfg5.N = 256 from N_5)
  by_cases h1 : t.val % 16 = 15
  · have h0 : ¬ t.val % 16 = 0 := notFirst5 h1
    have hz : t.val ≠ 0 := by omega
    rw [show (dat5 V c).leavesExact 3 t = owns (c : Thread nD τ) (ms5_3 t) fullShare ((dat5 V c).after 3 t) from by
      unfold Dat.leavesExact; rw [liveAt5_3 t ((hcond5_1 t).mpr h1)], after5_3]
    rw [outsAt5_C V c t h0 h1]
    unfold out1_C_3 sout1_C_0; (try dsimp only)
    rw [PhiS5_castSucc V c t, PhiS5_pos V c _ _ hz]
    iintro ⟨⟨⟨HS0, HRB⟩, Hg⟩, Ho, ⟨%d0, H0⟩, ⟨%d1, H1⟩, ⟨%d2, H2⟩, ⟨%d3, H3⟩⟩
    iapply ((kernelRun1_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HRB Hg]
    · isplitl [HS0 HRB]
      · isplitl [HS0]
        · unfold owns; iexists _; isplitr
          swap; · iexact HS0
          ipureintro; exact View.read_writes_of_cover _ _ _ _ _ (scover1_C_0 c _ _ _ _ _ _ _ _ _ _ _ _ _ _ _ _ _)
        iexact HRB
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat5 V c) 3 t (idleAt5_3 t (fun h => h1 ((hcond5_1 t).mp h))) (noFlush5_3 t (fun h => h1 ((hcond5_1 t).mp h)))]
    by_cases h0 : t.val % 16 = 0
    · rw [outsAt5_A V c t h0 h1]
      unfold sout1_A_0; (try dsimp only)
      by_cases hz : t.val = 0
      · rw [PhiS5_castSucc V c t, PhiS5_zero V c _ _ hz, PhiA5_eq]
        iintro ⟨⟨⟨HS0, HRB⟩, Hg⟩, Ho, ⟨%d0, H0⟩, ⟨%d1, H1⟩, ⟨%d2, H2⟩, ⟨%d3, H3⟩⟩
        iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, HRB⟩, Hg⟩, Ho, ⟨%d0, H0⟩, ⟨%d1, H1⟩, ⟨%d2, H2⟩, ⟨%d3, H3⟩⟩
        iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HRB Hg]
        · isplitl [HS0 HRB]
          · isplitl [HS0]
            · unfold owns; iexists _; isplitr
              swap; · iexact HS0
              ipureintro; exact View.read_writes_of_cover _ _ _ _ _ (scover1_A_0 c _ _ _ _ _ _ _ _ _ _ _ _ _ _ _ _)
            iexact HRB
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [outsAt5_B V c t h0 h1]
      unfold sout1_B_0; (try dsimp only)
      rw [PhiS5_castSucc V c t, PhiS5_pos V c _ _ hz]
      iintro ⟨⟨⟨HS0, HRB⟩, Hg⟩, Ho, ⟨%d0, H0⟩, ⟨%d1, H1⟩, ⟨%d2, H2⟩, ⟨%d3, H3⟩⟩
      iapply ((kernelRun1_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HRB Hg]
      · isplitl [HS0 HRB]
        · isplitl [HS0]
          · unfold owns; iexists _; isplitr
            swap; · iexact HS0
            ipureintro; exact View.read_writes_of_cover _ _ _ _ _ (scover1_B_0 c _ _ _ _ _ _ _ _ _ _ _ _ _ _ _ _ _)
          iexact HRB
        iexact Hg
      isplitl [Ho]; · iexact Ho
      isplitl [H0]; · iexact H0
      isplitl [H1]; · iexact H1
      isplitl [H2]; · iexact H2
      iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have ht : (Fin.last cfg5.N).val ≠ 0 := by rw [Fin.val_last]; have : cfg5.N = 256 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, HRB⟩, Hg⟩
  isplitl [HS0 HRB]
  · isplitl [HS0]; · iexists _; iexact HS0
    iexact HRB
  iexact Hg

end Cert.KernelIdeal.Hand

end
-- ==== Proof.Stages.lean ====
import proofs.«149749_j996432413323_1_alg».proof.Proof.Gen.KernelIdeal.Regions
import proofs.«149749_j996432413323_1_alg».proof.Proof.Dense0
import proofs.«149749_j996432413323_1_alg».proof.Proof.Dense2
import proofs.«149749_j996432413323_1_alg».proof.Proof.Dense4
import proofs.«149749_j996432413323_1_alg».proof.Proof.Dense6
import proofs.«149749_j996432413323_1_alg».proof.Proof.Reduce1
import proofs.«149749_j996432413323_1_alg».proof.Proof.Reduce3
import proofs.«149749_j996432413323_1_alg».proof.Proof.Reduce5

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

-- The memory contents at the fourteen boundaries: a host stretch applies its operations, a region replaces its output array.
def B1 (c : Dev nD) : Valuation τ sig (Elt F) := StableHlo.after hostOps0 (fun b => m (c, b))

def o2 (c : Dev nD) : Buf (Elt F) ((c : Thread nD τ).loc main_v2) := (dat0 (rd (B1 m)) c).arrAt 3 cfg0.N

def B2 (c : Dev nD) : Valuation τ sig (Elt F) := Function.update (B1 m c) main_v2 (o2 m c)

def B3 (c : Dev nD) : Valuation τ sig (Elt F) := StableHlo.after hostOps1 (B2 m c)

def o4 (c : Dev nD) : Buf (Elt F) ((c : Thread nD τ).loc main_v4) := (dat1 (rd (B3 m)) c).arrAt 3 cfg1.N

def B4 (c : Dev nD) : Valuation τ sig (Elt F) := Function.update (B3 m c) main_v4 (o4 m c)

def B5 (c : Dev nD) : Valuation τ sig (Elt F) := StableHlo.after hostOps2 (B4 m c)

def o6 (c : Dev nD) : Buf (Elt F) ((c : Thread nD τ).loc main_v11) := (dat2 (rd (B5 m)) c).arrAt 3 cfg2.N

def B6 (c : Dev nD) : Valuation τ sig (Elt F) := Function.update (B5 m c) main_v11 (o6 m c)

def B7 (c : Dev nD) : Valuation τ sig (Elt F) := StableHlo.after hostOps3 (B6 m c)

def o8 (c : Dev nD) : Buf (Elt F) ((c : Thread nD τ).loc main_v13) := (dat3 (rd (B7 m)) c).arrAt 3 cfg3.N

def B8 (c : Dev nD) : Valuation τ sig (Elt F) := Function.update (B7 m c) main_v13 (o8 m c)

def B9 (c : Dev nD) : Valuation τ sig (Elt F) := StableHlo.after hostOps4 (B8 m c)

def o10 (c : Dev nD) : Buf (Elt F) ((c : Thread nD τ).loc main_v20) := (dat4 (rd (B9 m)) c).arrAt 3 cfg4.N

def B10 (c : Dev nD) : Valuation τ sig (Elt F) := Function.update (B9 m c) main_v20 (o10 m c)

def B11 (c : Dev nD) : Valuation τ sig (Elt F) := StableHlo.after hostOps5 (B10 m c)

def o12 (c : Dev nD) : Buf (Elt F) ((c : Thread nD τ).loc main_v22) := (dat5 (rd (B11 m)) c).arrAt 3 cfg5.N

def B12 (c : Dev nD) : Valuation τ sig (Elt F) := Function.update (B11 m c) main_v22 (o12 m c)

def B13 (c : Dev nD) : Valuation τ sig (Elt F) := StableHlo.after hostOps6 (B12 m c)

def o14 (c : Dev nD) : Buf (Elt F) ((c : Thread nD τ).loc main_v24) := (dat6 (rd (B13 m)) c).arrAt 3 cfg6.N

def B14 (c : Dev nD) : Valuation τ sig (Elt F) := Function.update (B13 m c) main_v24 (o14 m c)

def outs : Outs (F := F) := fun J r c =>
  match J with
  | 2 => B2 m c r | 4 => B4 m c r | 6 => B6 m c r | 8 => B8 m c r | 10 => B10 m c r | 12 => B12 m c r | _ => B14 m c r

theorem V1_eq (c : Dev nD) : V1 m c = B1 m c := rfl
theorem V2_eq (c : Dev nD) : V2 m (outs m) c = B2 m c := by
  show Function.update (V1 m c) main_v2 (B2 m c main_v2) = B2 m c
  rw [V1_eq]; unfold B2; rw [Function.update_self]
theorem V3_eq (c : Dev nD) : V3 m (outs m) c = B3 m c := by
  show StableHlo.after hostOps1 (V2 m (outs m) c) = B3 m c
  rw [V2_eq]; rfl
theorem V4_eq (c : Dev nD) : V4 m (outs m) c = B4 m c := by
  show Function.update (V3 m (outs m) c) main_v4 (B4 m c main_v4) = B4 m c
  rw [V3_eq]; unfold B4; rw [Function.update_self]
theorem V5_eq (c : Dev nD) : V5 m (outs m) c = B5 m c := by
  show StableHlo.after hostOps2 (V4 m (outs m) c) = B5 m c
  rw [V4_eq]; rfl
theorem V6_eq (c : Dev nD) : V6 m (outs m) c = B6 m c := by
  show Function.update (V5 m (outs m) c) main_v11 (B6 m c main_v11) = B6 m c
  rw [V5_eq]; unfold B6; rw [Function.update_self]
theorem V7_eq (c : Dev nD) : V7 m (outs m) c = B7 m c := by
  show StableHlo.after hostOps3 (V6 m (outs m) c) = B7 m c
  rw [V6_eq]; rfl
theorem V8_eq (c : Dev nD) : V8 m (outs m) c = B8 m c := by
  show Function.update (V7 m (outs m) c) main_v13 (B8 m c main_v13) = B8 m c
  rw [V7_eq]; unfold B8; rw [Function.update_self]
theorem V9_eq (c : Dev nD) : V9 m (outs m) c = B9 m c := by
  show StableHlo.after hostOps4 (V8 m (outs m) c) = B9 m c
  rw [V8_eq]; rfl
theorem V10_eq (c : Dev nD) : V10 m (outs m) c = B10 m c := by
  show Function.update (V9 m (outs m) c) main_v20 (B10 m c main_v20) = B10 m c
  rw [V9_eq]; unfold B10; rw [Function.update_self]
theorem V11_eq (c : Dev nD) : V11 m (outs m) c = B11 m c := by
  show StableHlo.after hostOps5 (V10 m (outs m) c) = B11 m c
  rw [V10_eq]; rfl
theorem V12_eq (c : Dev nD) : V12 m (outs m) c = B12 m c := by
  show Function.update (V11 m (outs m) c) main_v22 (B12 m c main_v22) = B12 m c
  rw [V11_eq]; unfold B12; rw [Function.update_self]
theorem V13_eq (c : Dev nD) : V13 m (outs m) c = B13 m c := by
  show StableHlo.after hostOps6 (V12 m (outs m) c) = B13 m c
  rw [V12_eq]; rfl
theorem V14_eq (c : Dev nD) : V14 m (outs m) c = B14 m c := by
  show Function.update (V13 m (outs m) c) main_v24 (B14 m c main_v24) = B14 m c
  rw [V13_eq]; unfold B14; rw [Function.update_self]

theorem outs_14 (c : Dev nD) : outs m 14 main_v24 c = (dat6 (rd (B13 m)) c).arrAt 3 cfg6.N := by
  show B14 m c main_v24 = _; unfold B14; rw [Function.update_self]; rfl

end Cert.KernelIdeal.Hand

end
-- ==== Proof.RunCond.lean ====
import proofs.«149749_j996432413323_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

theorem V14_main_v24 (c : Dev nD) : V14 m outs c main_v24 = outs 14 main_v24 c := by
  simp only [V14, Function.update_self]

-- The program as fourteen steps, host stretches alternating with the seven regions, composed over the memory contents between them.
set_option backward.isDefEq.respectTransparency.types false in
set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 7) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 8 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE7 : ∀ c : Dev nD, E 7 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c)) :
    θ_run defs (onTc (τ := τ) (main (F := F))) ⟨m, fun _ => 0, ρ⟩ (fun r => ∀ c : Dev nD,
      r.2.mem ((c.tc : Thread nD τ).loc main_v24) = outs 14 main_v24 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3 R4 R5 R6)
    (fun c Q => by
      rewrite [main_chain c, Seg.run_eq_chain,
        show (segs m outs 𝒱₀ L lv E ι pdats R0 R1 R2 R3 R4 R5 R6 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V14 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (sep_mono .rfl (hE7 c))⟩)
    (hinit := ?_) (QY := fun c s => s.mem ((c.tc : Thread nD τ).loc main_v24) = outs 14 main_v24 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V14 m outs c) s') $$ [Hh HSI]
    · isplitl [Hh] <;> iassumption
    icases Hr with ⟨%h, HSI⟩
    imodintro
    isplitr
    · ipureintro
      exact ⟨(h (Proc.devRef .tc main_v24) (Finset.mem_filter.mpr ⟨StableHlo.devRef_mem_tcRefs main_v24, by decide⟩)).trans (V14_main_v24 m outs c),
        (h (Proc.devRef .tc main_arg0) (Finset.mem_filter.mpr ⟨StableHlo.devRef_mem_tcRefs main_arg0, by decide⟩)).trans (V14_main_arg0 m outs c),
        (h (Proc.devRef .tc main_arg1) (Finset.mem_filter.mpr ⟨StableHlo.devRef_mem_tcRefs main_arg1, by decide⟩)).trans (V14_main_arg1 m outs c),
        (h (Proc.devRef .tc main_arg2) (Finset.mem_filter.mpr ⟨StableHlo.devRef_mem_tcRefs main_arg2, by decide⟩)).trans (V14_main_arg2 m outs c),
        (h (Proc.devRef .tc main_arg3) (Finset.mem_filter.mpr ⟨StableHlo.devRef_mem_tcRefs main_arg3, by decide⟩)).trans (V14_main_arg3 m outs c),
        (h (Proc.devRef .tc main_arg4) (Finset.mem_filter.mpr ⟨StableHlo.devRef_mem_tcRefs main_arg4, by decide⟩)).trans (V14_main_arg4 m outs c),
        (h (Proc.devRef .tc main_arg5) (Finset.mem_filter.mpr ⟨StableHlo.devRef_mem_tcRefs main_arg5, by decide⟩)).trans (V14_main_arg5 m outs c),
        (h (Proc.devRef .tc main_arg6) (Finset.mem_filter.mpr ⟨StableHlo.devRef_mem_tcRefs main_arg6, by decide⟩)).trans (V14_main_arg6 m outs c),
        (h (Proc.devRef .tc main_arg7) (Finset.mem_filter.mpr ⟨StableHlo.devRef_mem_tcRefs main_arg7, by decide⟩)).trans (V14_main_arg7 m outs c)⟩
    · iexact HSI

end Cert.KernelIdeal.Hand

end
-- ==== Proof.Regs.lean ====
import proofs.«149749_j996432413323_1_alg».proof.Proof.Stages
import proofs.«149749_j996432413323_1_alg».proof.Proof.RunCond
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (rd (B1 m)) c
  | ⟨1, _⟩ => fun c => dat1 (rd (B3 m)) c
  | ⟨2, _⟩ => fun c => dat2 (rd (B5 m)) c
  | ⟨3, _⟩ => fun c => dat3 (rd (B7 m)) c
  | ⟨4, _⟩ => fun c => dat4 (rd (B9 m)) c
  | ⟨5, _⟩ => fun c => dat5 (rd (B11 m)) c
  | ⟨6, _⟩ => fun c => dat6 (rd (B13 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in
-- One region as a step of the program: it takes the memory contents `Bin` to `Bout`, which differ only in its output array.
def regOf (p : Fin 7) (launch : Pipeline.LaunchFacts (nD := nD) (τ := τ) cfgs p)
    (Bin Bout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = rd Bin c (Pipeline.arrRef (cfgs p).spec w))
    (hF : ∀ c w, (pdats m p c).arrAt w (cfgs p).N = rd Bout c (Pipeline.arrRef (cfgs p).spec w))
    (hrest : ∀ c b, b ∉ Finset.univ.image (Pipeline.arrRef (cfgs p).spec) → rd Bout c b = rd Bin c b)
    (hΦin : ∀ c, (Pipeline.ΦA (cfgs p).spec c : sProp 𝕄) ⊢ (pdats m p c).Φ 0)
    (hΦout : ∀ c, (pdats m p c).Φ (Fin.last _) ⊢ (Pipeline.ΦA (cfgs p).spec c : sProp 𝕄)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Bin c) ∗ R c)
  post c := iprop(StableHlo.held (c : Thread nD τ) (Pipeline.ucRefs τ sig) (Bout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Bin c)
  hentry c := by
    rw [Pipeline.ownSems0_none]
    have hsplit := Pipeline.arrays_of_unscopedBufs (p := p) (pcfgs (F := F)) adm (pdats m) launch.win launch.arr_whole c
      ((pdats m p c).share_full (hq c)) (rd Bin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c 0 ▸ trivial)
      rw [howed c 0]; iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine (hΦout c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd Bin c) (rd Bout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [howed c (Fin.last _)]; iexact HO

theorem hF0 (c : Dev nD) (w : Fin cfg0.W) : (pdats m 0 c).arrAt w cfg0.N = rd (B2 m) c (Pipeline.arrRef spec0 w) :=
  match w with
  | ⟨0, _⟩ | ⟨1, _⟩ | ⟨2, _⟩ => ((dat0 (rd (B1 m)) c).arrAt_in _ rfl _).trans ((A_eq0 (rd (B1 m)) c _).trans (by unfold B2; exact (Function.update_of_ne (StableHlo.devRef_ne_of_ne (by decide +revert)) _ _).symm))
  | ⟨3, _⟩ => by
    show (dat0 (rd (B1 m)) c).arrAt 3 cfg0.N = B2 m c main_v2
    unfold B2; rw [Function.update_self]; rfl

theorem hrest0 (c : Dev nD) : ∀ b : Ref sig .tc, b ∉ Finset.univ.image (Pipeline.arrRef spec0) → rd (B2 m) c b = rd (B1 m) c b :=
  fun b hb => by
    unfold B2
    exact Function.update_of_ne (StableHlo.devRef_ne_of_ne (fun e => hb (Finset.mem_image.mpr ⟨3, Finset.mem_univ _, e.symm⟩))) _ _

def reg0 : Pipeline.RegionSeg (pcfgs (F := F)) adm (pdats m) () defs₀ 𝒱₀ L lv 0 :=
  regOf m 0 launch0 (B1 m) (B2 m) (body_obligation0 (rd (B1 m))) (fun _ _ => rfl) (fun _ _ => rfl) (fun _ _ => rfl)
    (fun _ _ => rfl) (hF0 m) (hrest0 m) (fun _ => .rfl) (fun _ => .rfl)

theorem hF1 (c : Dev nD) (w : Fin cfg1.W) : (pdats m 1 c).arrAt w cfg1.N = rd (B4 m) c (Pipeline.arrRef spec1 w) :=
  match w with
  | ⟨0, _⟩ | ⟨1, _⟩ | ⟨2, _⟩ => ((dat1 (rd (B3 m)) c).arrAt_in _ rfl _).trans ((A_eq1 (rd (B3 m)) c _).trans (by unfold B4; exact (Function.update_of_ne (StableHlo.devRef_ne_of_ne (by decide +revert)) _ _).symm))
  | ⟨3, _⟩ => by
    show (dat1 (rd (B3 m)) c).arrAt 3 cfg1.N = B4 m c main_v4
    unfold B4; rw [Function.update_self]; rfl

theorem hrest1 (c : Dev nD) : ∀ b : Ref sig .tc, b ∉ Finset.univ.image (Pipeline.arrRef spec1) → rd (B4 m) c b = rd (B3 m) c b :=
  fun b hb => by
    unfold B4
    exact Function.update_of_ne (StableHlo.devRef_ne_of_ne (fun e => hb (Finset.mem_image.mpr ⟨3, Finset.mem_univ _, e.symm⟩))) _ _

def reg1 : Pipeline.RegionSeg (pcfgs (F := F)) adm (pdats m) () defs₀ 𝒱₀ L lv 1 :=
  regOf m 1 launch1 (B3 m) (B4 m) (body_obligation1 (rd (B3 m))) (fun _ _ => rfl) (fun _ _ => rfl) (fun _ _ => rfl)
    (fun _ _ => rfl) (hF1 m) (hrest1 m) (hin1 (rd (B3 m))) (hout1 (rd (B3 m)))

theorem hF2 (c : Dev nD) (w : Fin cfg2.W) : (pdats m 2 c).arrAt w cfg2.N = rd (B6 m) c (Pipeline.arrRef spec2 w) :=
  match w with
  | ⟨0, _⟩ | ⟨1, _⟩ | ⟨2, _⟩ => ((dat2 (rd (B5 m)) c).arrAt_in _ rfl _).trans ((A_eq2 (rd (B5 m)) c _).trans (by unfold B6; exact (Function.update_of_ne (StableHlo.devRef_ne_of_ne (by decide +revert)) _ _).symm))
  | ⟨3, _⟩ => by
    show (dat2 (rd (B5 m)) c).arrAt 3 cfg2.N = B6 m c main_v11
    unfold B6; rw [Function.update_self]; rfl

theorem hrest2 (c : Dev nD) : ∀ b : Ref sig .tc, b ∉ Finset.univ.image (Pipeline.arrRef spec2) → rd (B6 m) c b = rd (B5 m) c b :=
  fun b hb => by
    unfold B6
    exact Function.update_of_ne (StableHlo.devRef_ne_of_ne (fun e => hb (Finset.mem_image.mpr ⟨3, Finset.mem_univ _, e.symm⟩))) _ _

def reg2 : Pipeline.RegionSeg (pcfgs (F := F)) adm (pdats m) () defs₀ 𝒱₀ L lv 2 :=
  regOf m 2 launch2 (B5 m) (B6 m) (body_obligation2 (rd (B5 m))) (fun _ _ => rfl) (fun _ _ => rfl) (fun _ _ => rfl)
    (fun _ _ => rfl) (hF2 m) (hrest2 m) (fun _ => .rfl) (fun _ => .rfl)

theorem hF3 (c : Dev nD) (w : Fin cfg3.W) : (pdats m 3 c).arrAt w cfg3.N = rd (B8 m) c (Pipeline.arrRef spec3 w) :=
  match w with
  | ⟨0, _⟩ | ⟨1, _⟩ | ⟨2, _⟩ => ((dat3 (rd (B7 m)) c).arrAt_in _ rfl _).trans ((A_eq3 (rd (B7 m)) c _).trans (by unfold B8; exact (Function.update_of_ne (StableHlo.devRef_ne_of_ne (by decide +revert)) _ _).symm))
  | ⟨3, _⟩ => by
    show (dat3 (rd (B7 m)) c).arrAt 3 cfg3.N = B8 m c main_v13
    unfold B8; rw [Function.update_self]; rfl

theorem hrest3 (c : Dev nD) : ∀ b : Ref sig .tc, b ∉ Finset.univ.image (Pipeline.arrRef spec3) → rd (B8 m) c b = rd (B7 m) c b :=
  fun b hb => by
    unfold B8
    exact Function.update_of_ne (StableHlo.devRef_ne_of_ne (fun e => hb (Finset.mem_image.mpr ⟨3, Finset.mem_univ _, e.symm⟩))) _ _

def reg3 : Pipeline.RegionSeg (pcfgs (F := F)) adm (pdats m) () defs₀ 𝒱₀ L lv 3 :=
  regOf m 3 launch3 (B7 m) (B8 m) (body_obligation3 (rd (B7 m))) (fun _ _ => rfl) (fun _ _ => rfl) (fun _ _ => rfl)
    (fun _ _ => rfl) (hF3 m) (hrest3 m) (hin3 (rd (B7 m))) (hout3 (rd (B7 m)))

theorem hF4 (c : Dev nD) (w : Fin cfg4.W) : (pdats m 4 c).arrAt w cfg4.N = rd (B10 m) c (Pipeline.arrRef spec4 w) :=
  match w with
  | ⟨0, _⟩ | ⟨1, _⟩ | ⟨2, _⟩ => ((dat4 (rd (B9 m)) c).arrAt_in _ rfl _).trans ((A_eq4 (rd (B9 m)) c _).trans (by unfold B10; exact (Function.update_of_ne (StableHlo.devRef_ne_of_ne (by decide +revert)) _ _).symm))
  | ⟨3, _⟩ => by
    show (dat4 (rd (B9 m)) c).arrAt 3 cfg4.N = B10 m c main_v20
    unfold B10; rw [Function.update_self]; rfl

theorem hrest4 (c : Dev nD) : ∀ b : Ref sig .tc, b ∉ Finset.univ.image (Pipeline.arrRef spec4) → rd (B10 m) c b = rd (B9 m) c b :=
  fun b hb => by
    unfold B10
    exact Function.update_of_ne (StableHlo.devRef_ne_of_ne (fun e => hb (Finset.mem_image.mpr ⟨3, Finset.mem_univ _, e.symm⟩))) _ _

def reg4 : Pipeline.RegionSeg (pcfgs (F := F)) adm (pdats m) () defs₀ 𝒱₀ L lv 4 :=
  regOf m 4 launch4 (B9 m) (B10 m) (body_obligation4 (rd (B9 m))) (fun _ _ => rfl) (fun _ _ => rfl) (fun _ _ => rfl)
    (fun _ _ => rfl) (hF4 m) (hrest4 m) (fun _ => .rfl) (fun _ => .rfl)

theorem hF5 (c : Dev nD) (w : Fin cfg5.W) : (pdats m 5 c).arrAt w cfg5.N = rd (B12 m) c (Pipeline.arrRef spec5 w) :=
  match w with
  | ⟨0, _⟩ | ⟨1, _⟩ | ⟨2, _⟩ => ((dat5 (rd (B11 m)) c).arrAt_in _ rfl _).trans ((A_eq5 (rd (B11 m)) c _).trans (by unfold B12; exact (Function.update_of_ne (StableHlo.devRef_ne_of_ne (by decide +revert)) _ _).symm))
  | ⟨3, _⟩ => by
    show (dat5 (rd (B11 m)) c).arrAt 3 cfg5.N = B12 m c main_v22
    unfold B12; rw [Function.update_self]; rfl

theorem hrest5 (c : Dev nD) : ∀ b : Ref sig .tc, b ∉ Finset.univ.image (Pipeline.arrRef spec5) → rd (B12 m) c b = rd (B11 m) c b :=
  fun b hb => by
    unfold B12
    exact Function.update_of_ne (StableHlo.devRef_ne_of_ne (fun e => hb (Finset.mem_image.mpr ⟨3, Finset.mem_univ _, e.symm⟩))) _ _

def reg5 : Pipeline.RegionSeg (pcfgs (F := F)) adm (pdats m) () defs₀ 𝒱₀ L lv 5 :=
  regOf m 5 launch5 (B11 m) (B12 m) (body_obligation5 (rd (B11 m))) (fun _ _ => rfl) (fun _ _ => rfl) (fun _ _ => rfl)
    (fun _ _ => rfl) (hF5 m) (hrest5 m) (hin5 (rd (B11 m))) (hout5 (rd (B11 m)))

theorem hF6 (c : Dev nD) (w : Fin cfg6.W) : (pdats m 6 c).arrAt w cfg6.N = rd (B14 m) c (Pipeline.arrRef spec6 w) :=
  match w with
  | ⟨0, _⟩ | ⟨1, _⟩ | ⟨2, _⟩ => ((dat6 (rd (B13 m)) c).arrAt_in _ rfl _).trans ((A_eq6 (rd (B13 m)) c _).trans (by unfold B14; exact (Function.update_of_ne (StableHlo.devRef_ne_of_ne (by decide +revert)) _ _).symm))
  | ⟨3, _⟩ => by
    show (dat6 (rd (B13 m)) c).arrAt 3 cfg6.N = B14 m c main_v24
    unfold B14; rw [Function.update_self]; rfl

theorem hrest6 (c : Dev nD) : ∀ b : Ref sig .tc, b ∉ Finset.univ.image (Pipeline.arrRef spec6) → rd (B14 m) c b = rd (B13 m) c b :=
  fun b hb => by
    unfold B14
    exact Function.update_of_ne (StableHlo.devRef_ne_of_ne (fun e => hb (Finset.mem_image.mpr ⟨3, Finset.mem_univ _, e.symm⟩))) _ _

def reg6 : Pipeline.RegionSeg (pcfgs (F := F)) adm (pdats m) () defs₀ 𝒱₀ L lv 6 :=
  regOf m 6 launch6 (B13 m) (B14 m) (body_obligation6 (rd (B13 m))) (fun _ _ => rfl) (fun _ _ => rfl) (fun _ _ => rfl)
    (fun _ _ => rfl) (hF6 m) (hrest6 m) (fun _ => .rfl) (fun _ => .rfl)

end Cert.KernelIdeal.Hand

end
-- ==== Proof.Run.lean ====
import proofs.«149749_j996432413323_1_alg».proof.Proof.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run_main : θ_run defs (onTc (τ := τ) (main (F := F))) ⟨m, fun _ => 0, ρ⟩ (fun r => ∀ c : Dev nD,
      r.2.mem ((c.tc : Thread nD τ).loc main_v24) = outs m 14 main_v24 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (Ix := Unit) (U := UR sig nD τ) (Lvl := ℕ) (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE7 := fun c => by iintro ⟨-, HO⟩; iexact HO)
    (R0 := reg0 m) (hpre0 := fun c => by rw [V1_eq m c]; exact .rfl) (hpost0 := fun c => by rw [V2_eq m c]; exact .rfl)
    (R1 := reg1 m) (hpre1 := fun c => by rw [V3_eq m c]; exact .rfl) (hpost1 := fun c => by rw [V4_eq m c]; exact .rfl)
    (R2 := reg2 m) (hpre2 := fun c => by rw [V5_eq m c]; exact .rfl) (hpost2 := fun c => by rw [V6_eq m c]; exact .rfl)
    (R3 := reg3 m) (hpre3 := fun c => by rw [V7_eq m c]; exact .rfl) (hpost3 := fun c => by rw [V8_eq m c]; exact .rfl)
    (R4 := reg4 m) (hpre4 := fun c => by rw [V9_eq m c]; exact .rfl) (hpost4 := fun c => by rw [V10_eq m c]; exact .rfl)
    (R5 := reg5 m) (hpre5 := fun c => by rw [V11_eq m c]; exact .rfl) (hpost5 := fun c => by rw [V12_eq m c]; exact .rfl)
    (R6 := reg6 m) (hpre6 := fun c => by rw [V13_eq m c]; exact .rfl) (hpost6 := fun c => by rw [V14_eq m c]; exact .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

noncomputable section

open Idealize.ShloMosaic
open scoped BigOperators

namespace Cert.Spec

open ValueIdx

abbrev A2 (a b : Nat) : Type := Vec Ideal ⟨2, ![a, b]⟩ .f32

def denseAt {n k m : Nat} (x : A2 n k) (w : A2 k m) (b : A2 1 m) (i : Fin n) (j : Fin m) : EReal :=
  (∑ l : Fin k, x (ix2 i l) * w (ix2 l j)) + b (ix2 0 j)

def dense {n k m : Nat} (x : A2 n k) (w : A2 k m) (b : A2 1 m) : A2 n m :=
  fun idx => denseAt x w b (idx 0) (idx 1)

theorem dense_apply {n k m : Nat} (x : A2 n k) (w : A2 k m) (b : A2 1 m) (i : Fin n) (j : Fin m) :
    dense x w b (ix2 i j) = denseAt x w b i j := rfl

def gcAt {n m : Nat} (adj : A2 n n) (s : A2 n m) (b : A2 1 m) (i : Fin n) (j : Fin m) : EReal :=
  max ((∑ l : Fin n, adj (ix2 i l) * s (ix2 l j)) + b (ix2 0 j)) 0

def gc {n m : Nat} (adj : A2 n n) (s : A2 n m) (b : A2 1 m) : A2 n m :=
  fun idx => gcAt adj s b (idx 0) (idx 1)

theorem gc_apply {n m : Nat} (adj : A2 n n) (s : A2 n m) (b : A2 1 m) (i : Fin n) (j : Fin m) :
    gc adj s b (ix2 i j) = gcAt adj s b i j := rfl

def zeroRow (m : Nat) : A2 1 m := fun _ => 0

def row {m : Nat} (b : Vec Ideal ⟨1, ![m]⟩ .f32) : A2 1 m := fun idx => b (ix1 (idx 1))

theorem row_apply {m : Nat} (b : Vec Ideal ⟨1, ![m]⟩ .f32) (j : Fin m) : row b (ix2 0 j) = b (ix1 j) := rfl

def layer (adj : A2 16384 16384) (h : A2 16384 512) (w : A2 512 512) (b : A2 1 512) : A2 16384 512 :=
  gc adj (dense h w (zeroRow 512)) b

def net (x : A2 16384 512) (adj : A2 16384 16384) (w0 : A2 512 512) (b0 : A2 1 512) (w1 : A2 512 512) (b1 : A2 1 512)
    (w2 : A2 512 512) (b2 : A2 1 512) (wo : A2 512 128) (bo : A2 1 128) : A2 16384 128 :=
  dense (layer adj (layer adj (layer adj x w0 b0) w1 b1) w2 b2) wo bo

def wSlice (l : Fin 2) (a : Vec Ideal ⟨3, ![2, 512, 512]⟩ .f32) : A2 512 512 := fun idx => a (ix3 l (idx 0) (idx 1))

theorem wSlice_apply (l : Fin 2) (a : Vec Ideal ⟨3, ![2, 512, 512]⟩ .f32) (i j : Fin 512) :
    wSlice l a (ix2 i j) = a (ix3 l i j) := rfl

def bSlice (l : Fin 2) (a : Vec Ideal ⟨2, ![2, 512]⟩ .f32) : Vec Ideal ⟨1, ![512]⟩ .f32 := fun idx => a (ix2 l (idx 0))

theorem bSlice_apply (l : Fin 2) (a : Vec Ideal ⟨2, ![2, 512]⟩ .f32) (j : Fin 512) :
    bSlice l a (ix1 j) = a (ix2 l j) := rfl

def result (a0 : A2 16384 512) (a1 : A2 16384 16384) (a2 : A2 512 512) (a3 : Vec Ideal ⟨1, ![512]⟩ .f32)
    (a4 : Vec Ideal ⟨3, ![2, 512, 512]⟩ .f32) (a5 : Vec Ideal ⟨2, ![2, 512]⟩ .f32) (a6 : A2 512 128)
    (a7 : Vec Ideal ⟨1, ![128]⟩ .f32) : A2 16384 128 :=
  net a0 a1 a2 (row a3) (wSlice 0 a4) (row (bSlice 0 a5)) (wSlice 1 a4) (row (bSlice 1 a5)) a6 (row a7)

end Cert.Spec

end
-- ==== Proof.RefValue.lean ====
import proofs.«149749_j996432413323_1_alg».proof.Proof.Gen.ReferenceIdeal.Run
import proofs.«149749_j996432413323_1_alg».proof.Proof.Gen.ReferenceIdeal.Read
import proofs.«149749_j996432413323_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

theorem exists_ix2 {a b : Nat} (idx : (⟨2, ![a, b]⟩ : Shape).Idx) : ∃ (i : Fin a) (j : Fin b), idx = ix2 i j :=
  ⟨idx 0, idx 1, eq_ix2 idx⟩

theorem bias_apply (b : (⟨S512, .f32⟩ : BufTy).Contents (Elt Ideal)) (i : Fin 16384) (j : Fin 512) :
    val_main_v3 (F := Ideal) b (ix2 i j) = b (ix1 j) := by
  rw [val_main_v3_apply, val_main_v2_apply]
  congr 1
  funext a
  match a with
  | ⟨0, _⟩ => rfl

theorem zero_apply (idx : S16384x512.Idx) : val_main_call0_v0 (F := Ideal) idx = 0 := by
  rw [val_main_call0_v0_apply, val_main_call0_cst_apply]
  exact Ideal.ofBits_zero_f32

theorem xw_apply (h : (⟨S16384x512, .f32⟩ : BufTy).Contents (Elt Ideal)) (w : (⟨S512x512, .f32⟩ : BufTy).Contents (Elt Ideal))
    (k : Fin 16384) (j : Fin 512) :
    val_main_v0 (F := Ideal) h w (ix2 k j) = ∑ l : Fin 512, h (ix2 k l) * w (ix2 l j) := by
  rw [val_main_v0_apply]
  refine Finset.sum_congr rfl fun l _ => ?_
  congr 2
  · funext a
    match a with
    | ⟨0, _⟩ => rfl
    | ⟨1, _⟩ => rfl
  · funext a
    match a with
    | ⟨0, _⟩ => rfl
    | ⟨1, _⟩ => rfl

theorem axw_apply (h : (⟨S16384x512, .f32⟩ : BufTy).Contents (Elt Ideal)) (adj : (⟨S16384x16384, .f32⟩ : BufTy).Contents (Elt Ideal))
    (w : (⟨S512x512, .f32⟩ : BufTy).Contents (Elt Ideal)) (i : Fin 16384) (j : Fin 512) :
    val_main_v1 (F := Ideal) h adj w (ix2 i j)
      = ∑ k : Fin 16384, adj (ix2 i k) * Cert.Spec.dense h w (Cert.Spec.zeroRow 512) (ix2 k j) := by
  rw [val_main_v1_apply]
  refine Finset.sum_congr rfl fun k _ => ?_
  have el : lidx_main_v1 (ix2 i j) k = ix2 i k := by
    funext a
    match a with
    | ⟨0, _⟩ => rfl
    | ⟨1, _⟩ => rfl
  have er : ridx_main_v1 (ix2 i j) k = ix2 k j := by
    funext a
    match a with
    | ⟨0, _⟩ => rfl
    | ⟨1, _⟩ => rfl
  rw [el, er, xw_apply, Cert.Spec.dense_apply]
  unfold Cert.Spec.denseAt Cert.Spec.zeroRow
  rw [add_zero]

theorem layer_eq (h : (⟨S16384x512, .f32⟩ : BufTy).Contents (Elt Ideal)) (adj : (⟨S16384x16384, .f32⟩ : BufTy).Contents (Elt Ideal))
    (w : (⟨S512x512, .f32⟩ : BufTy).Contents (Elt Ideal)) (b : (⟨S512, .f32⟩ : BufTy).Contents (Elt Ideal)) :
    val_main_v5 (F := Ideal) h adj w b = Cert.Spec.layer adj h w (Cert.Spec.row b) := by
  funext idx
  obtain ⟨i, j, rfl⟩ := exists_ix2 idx
  unfold Cert.Spec.layer
  rw [Cert.Spec.gc_apply]
  unfold Cert.Spec.gcAt
  rw [val_main_v5_apply, val_main_v4_apply, axw_apply, bias_apply, zero_apply, Cert.Spec.row_apply]
  rfl

theorem w0_eq (a : (⟨S2x512x512, .f32⟩ : BufTy).Contents (Elt Ideal)) :
    val_main_v7 (F := Ideal) a = Cert.Spec.wSlice 0 a := by
  funext idx
  obtain ⟨i, j, rfl⟩ := exists_ix2 idx
  rw [val_main_v7_apply, val_main_v6_apply, Cert.Spec.wSlice_apply]
  congr 1
  funext d
  match d with
  | ⟨0, _⟩ => rfl
  | ⟨1, _⟩ => exact Fin.ext (by show (i.val * 512 + j.val) / 512 % 512 = i.val; have := i.isLt; have := j.isLt; omega)
  | ⟨2, _⟩ => exact Fin.ext (by show (i.val * 512 + j.val) % 512 = j.val; have := i.isLt; have := j.isLt; omega)

theorem w1_eq (a : (⟨S2x512x512, .f32⟩ : BufTy).Contents (Elt Ideal)) :
    val_main_v17 (F := Ideal) a = Cert.Spec.wSlice 1 a := by
  funext idx
  obtain ⟨i, j, rfl⟩ := exists_ix2 idx
  rw [val_main_v17_apply, val_main_v16_apply, Cert.Spec.wSlice_apply]
  congr 1
  funext d
  match d with
  | ⟨0, _⟩ => rfl
  | ⟨1, _⟩ => exact Fin.ext (by show (i.val * 512 + j.val) / 512 % 512 = i.val; have := i.isLt; have := j.isLt; omega)
  | ⟨2, _⟩ => exact Fin.ext (by show (i.val * 512 + j.val) % 512 = j.val; have := i.isLt; have := j.isLt; omega)

theorem b0_eq (a : (⟨S2x512, .f32⟩ : BufTy).Contents (Elt Ideal)) :
    val_main_v9 (F := Ideal) a = Cert.Spec.bSlice 0 a := by
  funext idx
  obtain ⟨j, rfl⟩ : ∃ j : Fin 512, idx = ix1 j := ⟨idx 0, eq_ix1 idx⟩
  rw [val_main_v9_apply, val_main_v8_apply, Cert.Spec.bSlice_apply]
  congr 1
  funext d
  match d with
  | ⟨0, _⟩ => rfl
  | ⟨1, _⟩ => exact Fin.ext (by show j.val % 512 = j.val; have := j.isLt; omega)

theorem b1_eq (a : (⟨S2x512, .f32⟩ : BufTy).Contents (Elt Ideal)) :
    val_main_v19 (F := Ideal) a = Cert.Spec.bSlice 1 a := by
  funext idx
  obtain ⟨j, rfl⟩ : ∃ j : Fin 512, idx = ix1 j := ⟨idx 0, eq_ix1 idx⟩
  rw [val_main_v19_apply, val_main_v18_apply, Cert.Spec.bSlice_apply]
  congr 1
  funext d
  match d with
  | ⟨0, _⟩ => rfl
  | ⟨1, _⟩ => exact Fin.ext (by show j.val % 512 = j.val; have := j.isLt; omega)

theorem obias_apply (b : (⟨S128, .f32⟩ : BufTy).Contents (Elt Ideal)) (i : Fin 16384) (j : Fin 128) :
    val_main_v28 (F := Ideal) b (ix2 i j) = b (ix1 j) := by
  rw [val_main_v28_apply, val_main_v27_apply]
  congr 1
  funext a
  match a with
  | ⟨0, _⟩ => rfl

theorem out_eq (x0 : (⟨S16384x512, .f32⟩ : BufTy).Contents (Elt Ideal)) (x1 : (⟨S16384x16384, .f32⟩ : BufTy).Contents (Elt Ideal))
    (x2 : (⟨S512x512, .f32⟩ : BufTy).Contents (Elt Ideal)) (x3 : (⟨S512, .f32⟩ : BufTy).Contents (Elt Ideal))
    (x4 : (⟨S2x512x512, .f32⟩ : BufTy).Contents (Elt Ideal)) (x5 : (⟨S2x512, .f32⟩ : BufTy).Contents (Elt Ideal))
    (x6 : (⟨S512x128, .f32⟩ : BufTy).Contents (Elt Ideal)) (x7 : (⟨S128, .f32⟩ : BufTy).Contents (Elt Ideal)) :
    val_main_v29 (F := Ideal) x0 x1 x2 x3 x4 x5 x6 x7
      = Cert.Spec.dense (val_main_v25 (F := Ideal) x0 x1 x2 x3 x4 x5) x6 (Cert.Spec.row x7) := by
  funext idx
  obtain ⟨i, j, rfl⟩ := exists_ix2 idx
  rw [val_main_v29_apply, val_main_v26_apply, obias_apply, Cert.Spec.dense_apply]
  generalize val_main_v25 (F := Ideal) x0 x1 x2 x3 x4 x5 = h
  unfold Cert.Spec.denseAt
  rw [Cert.Spec.row_apply]
  show (∑ k : Fin 512, h (lidx_main_v26 (ix2 i j) k) * x6 (ridx_main_v26 (ix2 i j) k)) + x7 (ix1 j) = _
  congr 1
  refine Finset.sum_congr rfl fun l _ => ?_
  congr 2
  · funext a
    match a with
    | ⟨0, _⟩ => rfl
    | ⟨1, _⟩ => rfl
  · funext a
    match a with
    | ⟨0, _⟩ => rfl
    | ⟨1, _⟩ => rfl

theorem stage2_eq (x0 : (⟨S16384x512, .f32⟩ : BufTy).Contents (Elt Ideal)) (x1 : (⟨S16384x16384, .f32⟩ : BufTy).Contents (Elt Ideal))
    (x2 : (⟨S512x512, .f32⟩ : BufTy).Contents (Elt Ideal)) (x3 : (⟨S512, .f32⟩ : BufTy).Contents (Elt Ideal))
    (x4 : (⟨S2x512x512, .f32⟩ : BufTy).Contents (Elt Ideal)) (x5 : (⟨S2x512, .f32⟩ : BufTy).Contents (Elt Ideal)) :
    val_main_v15 (F := Ideal) x0 x1 x2 x3 x4 x5
      = val_main_v5 (F := Ideal) (val_main_v5 (F := Ideal) x0 x1 x2 x3) x1 (val_main_v7 (F := Ideal) x4) (val_main_v9 (F := Ideal) x5) := by
  unfold val_main_v15 val_main_v14 val_main_v13 val_main_v12 val_main_v11 val_main_v10 val_main_call1_v0 val_main_call1_cst
  generalize val_main_v5 (F := Ideal) x0 x1 x2 x3 = h
  generalize val_main_v7 (F := Ideal) x4 = w
  generalize val_main_v9 (F := Ideal) x5 = b
  rfl

theorem stage3_eq (x0 : (⟨S16384x512, .f32⟩ : BufTy).Contents (Elt Ideal)) (x1 : (⟨S16384x16384, .f32⟩ : BufTy).Contents (Elt Ideal))
    (x2 : (⟨S512x512, .f32⟩ : BufTy).Contents (Elt Ideal)) (x3 : (⟨S512, .f32⟩ : BufTy).Contents (Elt Ideal))
    (x4 : (⟨S2x512x512, .f32⟩ : BufTy).Contents (Elt Ideal)) (x5 : (⟨S2x512, .f32⟩ : BufTy).Contents (Elt Ideal)) :
    val_main_v25 (F := Ideal) x0 x1 x2 x3 x4 x5
      = val_main_v5 (F := Ideal) (val_main_v15 (F := Ideal) x0 x1 x2 x3 x4 x5) x1 (val_main_v17 (F := Ideal) x4) (val_main_v19 (F := Ideal) x5) := by
  unfold val_main_v25 val_main_v24 val_main_v23 val_main_v22 val_main_v21 val_main_v20 val_main_call2_v0 val_main_call2_cst
  generalize val_main_v15 (F := Ideal) x0 x1 x2 x3 x4 x5 = h
  generalize val_main_v17 (F := Ideal) x4 = w
  generalize val_main_v19 (F := Ideal) x5 = b
  rfl

theorem value_eq (x0 : (⟨S16384x512, .f32⟩ : BufTy).Contents (Elt Ideal)) (x1 : (⟨S16384x16384, .f32⟩ : BufTy).Contents (Elt Ideal))
    (x2 : (⟨S512x512, .f32⟩ : BufTy).Contents (Elt Ideal)) (x3 : (⟨S512, .f32⟩ : BufTy).Contents (Elt Ideal))
    (x4 : (⟨S2x512x512, .f32⟩ : BufTy).Contents (Elt Ideal)) (x5 : (⟨S2x512, .f32⟩ : BufTy).Contents (Elt Ideal))
    (x6 : (⟨S512x128, .f32⟩ : BufTy).Contents (Elt Ideal)) (x7 : (⟨S128, .f32⟩ : BufTy).Contents (Elt Ideal)) :
    val_main_v29 (F := Ideal) x0 x1 x2 x3 x4 x5 x6 x7 = Cert.Spec.result x0 x1 x2 x3 x4 x5 x6 x7 := by
  rw [out_eq, stage3_eq, layer_eq, stage2_eq, layer_eq, layer_eq, w0_eq, w1_eq, b0_eq, b1_eq]
  rfl

theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread nD τ).loc main_v29)
          = Cert.Spec.result (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run defs _ _).mono
    (fun _ h c => ⟨(h c).1.trans ((val_main_v29_eq (F := Ideal) _ _ _ _ _ _ _ _).trans (value_eq _ _ _ _ _ _ _ _)), (h c).2⟩)
    (Cert.ReferenceIdeal.Value.run (F := Ideal) m' ρ')

end Cert.ReferenceIdeal.RefValue

end
-- ==== Proof.PayDense.lean ====
import proofs.«149749_j996432413323_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic ValueIdx
open scoped BigOperators

theorem denseLhs512_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl

theorem denseLhs512_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q

theorem denseRhs512_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

theorem denseRhs512_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem denseMatmul512_apply {φ₁ φ₂ : FTy} (a : FVec Ideal S2048x512 φ₁) (b : FVec Ideal S512x512 φ₂) (p : Fin 2048) (q : Fin 512) :
    matmul dot_S2048x512_S512x512_S2048x512_1_0_0_1_n_n none a b (constant (F := Ideal) S2048x512 .f32 0x00000000#32) (ix2 p q)
      = ∑ l : Fin 512, a (ix2 p l) * b (ix2 l q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun c => Fin.ext (by
    match c with
    | ⟨0, _⟩ => exact denseLhs512_0 _ _
    | ⟨1, _⟩ => exact (denseLhs512_1 _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun c => Fin.ext (by
    match c with
    | ⟨0, _⟩ => exact (denseRhs512_0 _ _).trans hk
    | ⟨1, _⟩ => exact denseRhs512_1 _ _)
  rw [el, er]

theorem denseLhs128_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl

theorem denseLhs128_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q

theorem denseRhs128_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q

theorem denseRhs128_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

theorem denseMatmul128_apply {φ₁ φ₂ : FTy} (a : FVec Ideal S2048x512 φ₁) (b : FVec Ideal S512x128 φ₂) (p : Fin 2048) (q : Fin 128) :
    matmul dot_S2048x512_S512x128_S2048x128_1_0_0_1_n_n none a b (constant (F := Ideal) S2048x128 .f32 0x00000000#32) (ix2 p q)
      = ∑ l : Fin 512, a (ix2 p l) * b (ix2 l q) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun c => Fin.ext (by
    match c with
    | ⟨0, _⟩ => exact denseLhs128_0 _ _
    | ⟨1, _⟩ => exact (denseLhs128_1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun c => Fin.ext (by
    match c with
    | ⟨0, _⟩ => exact (denseRhs128_0 _ _).trans hk
    | ⟨1, _⟩ => exact denseRhs128_1 _ _)
  rw [el, er]

theorem denseBias512_apply (y : FVec Ideal S1x512 .f32) (p : Fin 2048) (q : Fin 512) :
    broadcastTo S2048x512 y broadcasts_S1x512_S2048x512 (ix2 p q) = y (ix2 0 q) :=
  broadcastTo_apply y broadcasts_S1x512_S2048x512 (ix2 p q) (ix2 0 q) (fun c => match c with
    | ⟨0, _⟩ => by show (0 : Nat) = if (1 : Nat) = 1 then 0 else p.val; rw [if_pos rfl]
    | ⟨1, _⟩ => by show q.val = if (512 : Nat) = 1 then 0 else q.val; rw [if_neg (by decide)])

theorem denseBias128_apply (y : FVec Ideal S1x128 .f32) (p : Fin 2048) (q : Fin 128) :
    broadcastTo S2048x128 y broadcasts_S1x128_S2048x128 (ix2 p q) = y (ix2 0 q) :=
  broadcastTo_apply y broadcasts_S1x128_S2048x128 (ix2 p q) (ix2 0 q) (fun c => match c with
    | ⟨0, _⟩ => by show (0 : Nat) = if (1 : Nat) = 1 then 0 else p.val; rw [if_pos rfl]
    | ⟨1, _⟩ => by show q.val = if (128 : Nat) = 1 then 0 else q.val; rw [if_neg (by decide)])

theorem k0_pay1_apply (x0 : Vec Ideal S2048x512 .f32) (x1 : Vec Ideal S512x512 .f32) (x2 : Vec Ideal S1x512 .f32) (p : Fin 2048) (q : Fin 512) :
    k0_pay1 (F := Ideal) x0 x1 x2 (ix2 p q) = (∑ l : Fin 512, x0 (ix2 p l) * x1 (ix2 l q)) + x2 (ix2 0 q) := by
  unfold k0_pay1
  simp only [shapeCast_self]
  rw [addf_apply, denseMatmul512_apply, denseBias512_apply]
  rfl

theorem k2_pay1_apply (x0 : Vec Ideal S2048x512 .f32) (x1 : Vec Ideal S512x512 .f32) (x2 : Vec Ideal S1x512 .f32) (p : Fin 2048) (q : Fin 512) :
    k2_pay1 (F := Ideal) x0 x1 x2 (ix2 p q) = (∑ l : Fin 512, x0 (ix2 p l) * x1 (ix2 l q)) + x2 (ix2 0 q) := by
  unfold k2_pay1
  simp only [shapeCast_self]
  rw [addf_apply, denseMatmul512_apply, denseBias512_apply]
  rfl

theorem k6_pay1_apply (x0 : Vec Ideal S2048x512 .f32) (x1 : Vec Ideal S512x128 .f32) (x2 : Vec Ideal S1x128 .f32) (p : Fin 2048) (q : Fin 128) :
    k6_pay1 (F := Ideal) x0 x1 x2 (ix2 p q) = (∑ l : Fin 512, x0 (ix2 p l) * x1 (ix2 l q)) + x2 (ix2 0 q) := by
  unfold k6_pay1
  simp only [shapeCast_self]
  rw [addf_apply, denseMatmul128_apply, denseBias128_apply]
  rfl

end Cert.KernelIdeal.Val
-- ==== Proof.DenseValue0.lean ====
import proofs.«149749_j996432413323_1_alg».proof.Proof.Dense0
import proofs.«149749_j996432413323_1_alg».proof.Proof.PayDense
import proofs.«149749_j996432413323_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)
open scoped BigOperators

variable (V : (c : Dev nD) → (b : Ref sig .tc) → Buf (Elt Ideal) ((c : Thread nD τ).loc b))

theorem hz_r0 : (![0, 0] : Fin 2 → Nat) = fun _ => 0 := funext fun a => by fin_cases a <;> rfl

abbrev G_r0 (c : Dev nD) := Cert.Spec.dense (V c (Pipeline.arrRef spec0 0)) (V c (Pipeline.arrRef spec0 1)) (V c (Pipeline.arrRef spec0 2))

theorem idx_facts_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem entry_r0 (X : Vec Ideal S16384x512 .f32) (W : Vec Ideal S512x512 .f32) (B : Vec Ideal S1x512 .f32)
    (x0 : Vec Ideal S2048x512 .f32) (x1 : Vec Ideal S512x512 .f32) (x2 : Vec Ideal S1x512 .f32)
    (j : S2048x512.Idx) (i : S16384x512.Idx)
    (hx0 : ∀ l : Fin 512, x0 (ix2 (j 0) l) = X (ix2 (i 0) l))
    (hx1 : ∀ l : Fin 512, x1 (ix2 l (j 1)) = W (ix2 l (i 1)))
    (hx2 : x2 (ix2 0 (j 1)) = B (ix2 0 (i 1))) :
    k0_pay1 (F := Ideal) x0 x1 x2 j = Cert.Spec.dense X W B i := by
  refine ((congrArg (k0_pay1 (F := Ideal) x0 x1 x2) (eq_ix2 j)).trans (k0_pay1_apply x0 x1 x2 (j 0) (j 1))).trans ?_
  show _ = (∑ l : Fin 512, X (ix2 (i 0) l) * W (ix2 l (i 1))) + B (ix2 0 (i 1))
  rw [hx2]
  exact congrArg (· + B (ix2 0 (i 1))) (Finset.sum_congr rfl fun l _ => by rw [hx0 l, hx1 l])

theorem flushed_eq_r0 (c : Dev nD) (t : Fin cfg0.N) :
    (dat0 V c).flushed 3 t = ((cfg0.win 3).blk t).view.read (Elt Ideal) (G_r0 V c) := by
  show (cfg0.win 3).cut (grid0.coords t) ((dat0 V c).after 3 t) = _
  rw [after0_3]
  unfold out0_3
  rw [View.canon_unit_zero hz_r0]
  simp only [View.ld_unit_zero (S := S2048x512) hz_r0, View.ld_unit_zero (S := S512x512) hz_r0, View.ld_unit_zero (S := S1x512) hz_r0]
  obtain ⟨e0, e1, e2, e3, e4, e5, e6, e7⟩ := idx_facts_r0 t
  funext j
  refine entry_r0 (V c (Pipeline.arrRef spec0 0)) (V c (Pipeline.arrRef spec0 1)) (V c (Pipeline.arrRef spec0 2))
    (iblk0 V c 0 t) (iblk0 V c 1 t) (iblk0 V c 2 t) j (((cfg0.win 3).blk t).view.emb j) ?_ ?_ ?_
  · intro l
    show V c (Pipeline.arrRef spec0 0) (((cfg0.win 0).blk t).view.emb (ix2 (j 0) l)) = _
    refine congrArg _ (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 512 + 1 * l.val = l.val; omega
  · intro l
    show V c (Pipeline.arrRef spec0 1) (((cfg0.win 1).blk t).view.emb (ix2 l (j 1))) = _
    refine congrArg _ (funext fun a => Fin.ext ?_)
    match a with
    | ⟨0, _⟩ => show win0_1.index t (0 : Fin 2) * 512 + 1 * l.val = l.val; omega
    | ⟨1, _⟩ => show win0_1.index t (1 : Fin 2) * 512 + 1 * (j 1).val = win0_3.index t (1 : Fin 2) * 512 + 1 * (j 1).val; omega
  · show V c (Pipeline.arrRef spec0 2) (((cfg0.win 2).blk t).view.emb (ix2 0 (j 1))) = _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

theorem mem_blk_r0 (t : Fin cfg0.N) (i : S16384x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole (Pipeline.arrRef spec0 3)).slice (win0_3.rect t)).set ↔ _
  rw [View.set_slice_whole, Rect.mem_set_unit]
  exact Iff.rfl

theorem cover_r0 (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, -, -, e6, e7⟩ := idx_facts_r0 t
  refine ⟨t, flush0_3 t, ?_⟩
  rw [mem_blk_r0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

-- Block `t` of the output is rows `2048·t … 2048·t + 2047` of `x · w + b`, and the eight blocks tile the array.
theorem denseValue_r0 (c : Dev nD) :
    (dat0 V c).arrAt 3 cfg0.N = Cert.Spec.dense (V c (Pipeline.arrRef spec0 0)) (V c (Pipeline.arrRef spec0 1)) (V c (Pipeline.arrRef spec0 2)) :=
  (dat0 V c).arrAt_eq_of_cover 3 (G_r0 V c) (fun t _ => flushed_eq_r0 V c t) cover_r0

end Cert.KernelIdeal.Val
-- ==== Proof.DenseValue2.lean ====
import proofs.«149749_j996432413323_1_alg».proof.Proof.Dense2
import proofs.«149749_j996432413323_1_alg».proof.Proof.PayDense
import proofs.«149749_j996432413323_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)
open scoped BigOperators

variable (V : (c : Dev nD) → (b : Ref sig .tc) → Buf (Elt Ideal) ((c : Thread nD τ).loc b))

theorem hz_r2 : (![0, 0] : Fin 2 → Nat) = fun _ => 0 := funext fun a => by fin_cases a <;> rfl

abbrev G_r2 (c : Dev nD) := Cert.Spec.dense (V c (Pipeline.arrRef spec2 0)) (V c (Pipeline.arrRef spec2 1)) (V c (Pipeline.arrRef spec2 2))

theorem idx_facts_r2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem entry_r2 (X : Vec Ideal S16384x512 .f32) (W : Vec Ideal S512x512 .f32) (B : Vec Ideal S1x512 .f32)
    (x0 : Vec Ideal S2048x512 .f32) (x1 : Vec Ideal S512x512 .f32) (x2 : Vec Ideal S1x512 .f32)
    (j : S2048x512.Idx) (i : S16384x512.Idx)
    (hx0 : ∀ l : Fin 512, x0 (ix2 (j 0) l) = X (ix2 (i 0) l))
    (hx1 : ∀ l : Fin 512, x1 (ix2 l (j 1)) = W (ix2 l (i 1)))
    (hx2 : x2 (ix2 0 (j 1)) = B (ix2 0 (i 1))) :
    k2_pay1 (F := Ideal) x0 x1 x2 j = Cert.Spec.dense X W B i := by
  refine ((congrArg (k2_pay1 (F := Ideal) x0 x1 x2) (eq_ix2 j)).trans (k2_pay1_apply x0 x1 x2 (j 0) (j 1))).trans ?_
  show _ = (∑ l : Fin 512, X (ix2 (i 0) l) * W (ix2 l (i 1))) + B (ix2 0 (i 1))
  rw [hx2]
  exact congrArg (· + B (ix2 0 (i 1))) (Finset.sum_congr rfl fun l _ => by rw [hx0 l, hx1 l])

theorem flushed_eq_r2 (c : Dev nD) (t : Fin cfg2.N) :
    (dat2 V c).flushed 3 t = ((cfg2.win 3).blk t).view.read (Elt Ideal) (G_r2 V c) := by
  show (cfg2.win 3).cut (grid2.coords t) ((dat2 V c).after 3 t) = _
  rw [after2_3]
  unfold out2_3
  rw [View.canon_unit_zero hz_r2]
  simp only [View.ld_unit_zero (S := S2048x512) hz_r2, View.ld_unit_zero (S := S512x512) hz_r2, View.ld_unit_zero (S := S1x512) hz_r2]
  obtain ⟨e0, e1, e2, e3, e4, e5, e6, e7⟩ := idx_facts_r2 t
  funext j
  refine entry_r2 (V c (Pipeline.arrRef spec2 0)) (V c (Pipeline.arrRef spec2 1)) (V c (Pipeline.arrRef spec2 2))
    (iblk2 V c 0 t) (iblk2 V c 1 t) (iblk2 V c 2 t) j (((cfg2.win 3).blk t).view.emb j) ?_ ?_ ?_
  · intro l
    show V c (Pipeline.arrRef spec2 0) (((cfg2.win 0).blk t).view.emb (ix2 (j 0) l)) = _
    refine congrArg _ (funext fun a => Fin.ext ?_)
    match a with
    | ⟨0, _⟩ => show win2_0.index t (0 : Fin 2) * 2048 + 1 * (j 0).val = win2_3.index t (0 : Fin 2) * 2048 + 1 * (j 0).val; omega
    | ⟨1, _⟩ => show win2_0.index t (1 : Fin 2) * 512 + 1 * l.val = l.val; omega
  · intro l
    show V c (Pipeline.arrRef spec2 1) (((cfg2.win 1).blk t).view.emb (ix2 l (j 1))) = _
    refine congrArg _ (funext fun a => Fin.ext ?_)
    match a with
    | ⟨0, _⟩ => show win2_1.index t (0 : Fin 2) * 512 + 1 * l.val = l.val; omega
    | ⟨1, _⟩ => show win2_1.index t (1 : Fin 2) * 512 + 1 * (j 1).val = win2_3.index t (1 : Fin 2) * 512 + 1 * (j 1).val; omega
  · show V c (Pipeline.arrRef spec2 2) (((cfg2.win 2).blk t).view.emb (ix2 0 (j 1))) = _
    refine congrArg _ (funext fun a => Fin.ext ?_)
    match a with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega

theorem mem_blk_r2 (t : Fin cfg2.N) (i : S16384x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole (Pipeline.arrRef spec2 3)).slice (win2_3.rect t)).set ↔ _
  rw [View.set_slice_whole, Rect.mem_set_unit]
  exact Iff.rfl

theorem cover_r2 (i : S16384x512.Idx) : ∃ t : Fin cfg2.N, (cfg2.win 3).flush t = true ∧ i ∈ ((cfg2.win 3).blk t).view.set := by
  have hi0 : (i 0).val < 16384 := (i 0).isLt
  have hi1 : (i 1).val < 512 := (i 1).isLt
  have hN : cfg2.N = 8 := N_2
  obtain ⟨t, ht⟩ : ∃ t : Fin cfg2.N, t.val = (i 0).val / 2048 := ⟨⟨(i 0).val / 2048, by omega⟩, rfl⟩
  obtain ⟨-, -, -, -, -, -, e6, e7⟩ := idx_facts_r2 t
  refine ⟨t, flush2_3 t, ?_⟩
  rw [mem_blk_r2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 512 ≤ (i 1).val ∧ (i 1).val < win2_3.index t (1 : Fin 2) * 512 + 512; omega

-- Block `t` of the output is rows `2048·t … 2048·t + 2047` of `x · w + b`, and the eight blocks tile the array.
theorem denseValue_r2 (c : Dev nD) :
    (dat2 V c).arrAt 3 cfg2.N = Cert.Spec.dense (V c (Pipeline.arrRef spec2 0)) (V c (Pipeline.arrRef spec2 1)) (V c (Pipeline.arrRef spec2 2)) :=
  (dat2 V c).arrAt_eq_of_cover 3 (G_r2 V c) (fun t _ => flushed_eq_r2 V c t) cover_r2

end Cert.KernelIdeal.Val
-- ==== Proof.DenseValue4.lean ====
import proofs.«149749_j996432413323_1_alg».proof.Proof.Dense4
import proofs.«149749_j996432413323_1_alg».proof.Proof.PayDense
import proofs.«149749_j996432413323_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)
open scoped BigOperators

variable (V : (c : Dev nD) → (b : Ref sig .tc) → Buf (Elt Ideal) ((c : Thread nD τ).loc b))

theorem hz_r4 : (![0, 0] : Fin 2 → Nat) = fun _ => 0 := funext fun a => by fin_cases a <;> rfl

abbrev G_r4 (c : Dev nD) := Cert.Spec.dense (V c (Pipeline.arrRef spec4 0)) (V c (Pipeline.arrRef spec4 1)) (V c (Pipeline.arrRef spec4 2))

theorem idx_facts_r4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem entry_r4 (X : Vec Ideal S16384x512 .f32) (W : Vec Ideal S512x512 .f32) (B : Vec Ideal S1x512 .f32)
    (x0 : Vec Ideal S2048x512 .f32) (x1 : Vec Ideal S512x512 .f32) (x2 : Vec Ideal S1x512 .f32)
    (j : S2048x512.Idx) (i : S16384x512.Idx)
    (hx0 : ∀ l : Fin 512, x0 (ix2 (j 0) l) = X (ix2 (i 0) l))
    (hx1 : ∀ l : Fin 512, x1 (ix2 l (j 1)) = W (ix2 l (i 1)))
    (hx2 : x2 (ix2 0 (j 1)) = B (ix2 0 (i 1))) :
    k2_pay1 (F := Ideal) x0 x1 x2 j = Cert.Spec.dense X W B i := by
  refine ((congrArg (k2_pay1 (F := Ideal) x0 x1 x2) (eq_ix2 j)).trans (k2_pay1_apply x0 x1 x2 (j 0) (j 1))).trans ?_
  show _ = (∑ l : Fin 512, X (ix2 (i 0) l) * W (ix2 l (i 1))) + B (ix2 0 (i 1))
  rw [hx2]
  exact congrArg (· + B (ix2 0 (i 1))) (Finset.sum_congr rfl fun l _ => by rw [hx0 l, hx1 l])

theorem flushed_eq_r4 (c : Dev nD) (t : Fin cfg4.N) :
    (dat4 V c).flushed 3 t = ((cfg4.win 3).blk t).view.read (Elt Ideal) (G_r4 V c) := by
  show (cfg4.win 3).cut (grid4.coords t) ((dat4 V c).after 3 t) = _
  rw [after4_3]
  unfold out2_3
  rw [View.canon_unit_zero hz_r4]
  simp only [View.ld_unit_zero (S := S2048x512) hz_r4, View.ld_unit_zero (S := S512x512) hz_r4, View.ld_unit_zero (S := S1x512) hz_r4]
  obtain ⟨e0, e1, e2, e3, e4, e5, e6, e7⟩ := idx_facts_r4 t
  funext j
  refine entry_r4 (V c (Pipeline.arrRef spec4 0)) (V c (Pipeline.arrRef spec4 1)) (V c (Pipeline.arrRef spec4 2))
    (iblk4 V c 0 t) (iblk4 V c 1 t) (iblk4 V c 2 t) j (((cfg4.win 3).blk t).view.emb j) ?_ ?_ ?_
  · intro l
    show V c (Pipeline.arrRef spec4 0) (((cfg4.win 0).blk t).view.emb (ix2 (j 0) l)) = _
    refine congrArg _ (funext fun a => Fin.ext ?_)
    match a with
    | ⟨0, _⟩ => show win4_0.index t (0 : Fin 2) * 2048 + 1 * (j 0).val = win4_3.index t (0 : Fin 2) * 2048 + 1 * (j 0).val; omega
    | ⟨1, _⟩ => show win4_0.index t (1 : Fin 2) * 512 + 1 * l.val = l.val; omega
  · intro l
    show V c (Pipeline.arrRef spec4 1) (((cfg4.win 1).blk t).view.emb (ix2 l (j 1))) = _
    refine congrArg _ (funext fun a => Fin.ext ?_)
    match a with
    | ⟨0, _⟩ => show win4_1.index t (0 : Fin 2) * 512 + 1 * l.val = l.val; omega
    | ⟨1, _⟩ => show win4_1.index t (1 : Fin 2) * 512 + 1 * (j 1).val = win4_3.index t (1 : Fin 2) * 512 + 1 * (j 1).val; omega
  · show V c (Pipeline.arrRef spec4 2) (((cfg4.win 2).blk t).view.emb (ix2 0 (j 1))) = _
    refine congrArg _ (funext fun a => Fin.ext ?_)
    match a with
    | ⟨0, _⟩ => show win4_2.index t (0 : Fin 2) * 1 + 1 * 0 = 0; omega
    | ⟨1, _⟩ => show win4_2.index t (1 : Fin 2) * 512 + 1 * (j 1).val = win4_3.index t (1 : Fin 2) * 512 + 1 * (j 1).val; omega

theorem mem_blk_r4 (t : Fin cfg4.N) (i : S16384x512.Idx) :
    i ∈ ((cfg4.win 3).blk t).view.set ↔ ∀ a : Fin 2, win4_3.index t a * S2048x512.size a ≤ (i a).val ∧ (i a).val < win4_3.index t a * S2048x512.size a + S2048x512.size a := by
  show i ∈ ((View.whole (Pipeline.arrRef spec4 3)).slice (win4_3.rect t)).set ↔ _
  rw [View.set_slice_whole, Rect.mem_set_unit]
  exact Iff.rfl

theorem cover_r4 (i : S16384x512.Idx) : ∃ t : Fin cfg4.N, (cfg4.win 3).flush t = true ∧ i ∈ ((cfg4.win 3).blk t).view.set := by
  have hi0 : (i 0).val < 16384 := (i 0).isLt
  have hi1 : (i 1).val < 512 := (i 1).isLt
  have hN : cfg4.N = 8 := N_4
  obtain ⟨t, ht⟩ : ∃ t : Fin cfg4.N, t.val = (i 0).val / 2048 := ⟨⟨(i 0).val / 2048, by omega⟩, rfl⟩
  obtain ⟨-, -, -, -, -, -, e6, e7⟩ := idx_facts_r4 t
  refine ⟨t, flush4_3 t, ?_⟩
  rw [mem_blk_r4]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 512 ≤ (i 1).val ∧ (i 1).val < win4_3.index t (1 : Fin 2) * 512 + 512; omega

-- Block `t` of the output is rows `2048·t … 2048·t + 2047` of `x · w + b`, and the eight blocks tile the array.
theorem denseValue_r4 (c : Dev nD) :
    (dat4 V c).arrAt 3 cfg4.N = Cert.Spec.dense (V c (Pipeline.arrRef spec4 0)) (V c (Pipeline.arrRef spec4 1)) (V c (Pipeline.arrRef spec4 2)) :=
  (dat4 V c).arrAt_eq_of_cover 3 (G_r4 V c) (fun t _ => flushed_eq_r4 V c t) cover_r4

end Cert.KernelIdeal.Val
-- ==== Proof.DenseValue6.lean ====
import proofs.«149749_j996432413323_1_alg».proof.Proof.Dense6
import proofs.«149749_j996432413323_1_alg».proof.Proof.PayDense
import proofs.«149749_j996432413323_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)
open scoped BigOperators

variable (V : (c : Dev nD) → (b : Ref sig .tc) → Buf (Elt Ideal) ((c : Thread nD τ).loc b))

theorem hz_r6 : (![0, 0] : Fin 2 → Nat) = fun _ => 0 := funext fun a => by fin_cases a <;> rfl

abbrev G_r6 (c : Dev nD) := Cert.Spec.dense (V c (Pipeline.arrRef spec6 0)) (V c (Pipeline.arrRef spec6 1)) (V c (Pipeline.arrRef spec6 2))

theorem idx_facts_r6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem entry_r6 (X : Vec Ideal S16384x512 .f32) (W : Vec Ideal S512x128 .f32) (B : Vec Ideal S1x128 .f32)
    (x0 : Vec Ideal S2048x512 .f32) (x1 : Vec Ideal S512x128 .f32) (x2 : Vec Ideal S1x128 .f32)
    (j : S2048x128.Idx) (i : S16384x128.Idx)
    (hx0 : ∀ l : Fin 512, x0 (ix2 (j 0) l) = X (ix2 (i 0) l))
    (hx1 : ∀ l : Fin 512, x1 (ix2 l (j 1)) = W (ix2 l (i 1)))
    (hx2 : x2 (ix2 0 (j 1)) = B (ix2 0 (i 1))) :
    k6_pay1 (F := Ideal) x0 x1 x2 j = Cert.Spec.dense X W B i := by
  refine ((congrArg (k6_pay1 (F := Ideal) x0 x1 x2) (eq_ix2 j)).trans (k6_pay1_apply x0 x1 x2 (j 0) (j 1))).trans ?_
  show _ = (∑ l : Fin 512, X (ix2 (i 0) l) * W (ix2 l (i 1))) + B (ix2 0 (i 1))
  rw [hx2]
  exact congrArg (· + B (ix2 0 (i 1))) (Finset.sum_congr rfl fun l _ => by rw [hx0 l, hx1 l])

theorem flushed_eq_r6 (c : Dev nD) (t : Fin cfg6.N) :
    (dat6 V c).flushed 3 t = ((cfg6.win 3).blk t).view.read (Elt Ideal) (G_r6 V c) := by
  show (cfg6.win 3).cut (grid6.coords t) ((dat6 V c).after 3 t) = _
  rw [after6_3]
  unfold out6_3
  rw [View.canon_unit_zero hz_r6]
  simp only [View.ld_unit_zero (S := S2048x512) hz_r6, View.ld_unit_zero (S := S512x128) hz_r6, View.ld_unit_zero (S := S1x128) hz_r6]
  obtain ⟨e0, e1, e2, e3, e4, e5, e6, e7⟩ := idx_facts_r6 t
  funext j
  refine entry_r6 (V c (Pipeline.arrRef spec6 0)) (V c (Pipeline.arrRef spec6 1)) (V c (Pipeline.arrRef spec6 2))
    (iblk6 V c 0 t) (iblk6 V c 1 t) (iblk6 V c 2 t) j (((cfg6.win 3).blk t).view.emb j) ?_ ?_ ?_
  · intro l
    show V c (Pipeline.arrRef spec6 0) (((cfg6.win 0).blk t).view.emb (ix2 (j 0) l)) = _
    refine congrArg _ (funext fun a => Fin.ext ?_)
    match a with
    | ⟨0, _⟩ => show win6_0.index t (0 : Fin 2) * 2048 + 1 * (j 0).val = win6_3.index t (0 : Fin 2) * 2048 + 1 * (j 0).val; omega
    | ⟨1, _⟩ => show win6_0.index t (1 : Fin 2) * 512 + 1 * l.val = l.val; omega
  · intro l
    show V c (Pipeline.arrRef spec6 1) (((cfg6.win 1).blk t).view.emb (ix2 l (j 1))) = _
    refine congrArg _ (funext fun a => Fin.ext ?_)
    match a with
    | ⟨0, _⟩ => show win6_1.index t (0 : Fin 2) * 512 + 1 * l.val = l.val; omega
    | ⟨1, _⟩ => show win6_1.index t (1 : Fin 2) * 128 + 1 * (j 1).val = win6_3.index t (1 : Fin 2) * 128 + 1 * (j 1).val; omega
  · show V c (Pipeline.arrRef spec6 2) (((cfg6.win 2).blk t).view.emb (ix2 0 (j 1))) = _
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega

theorem mem_blk_r6 (t : Fin cfg6.N) (i : S16384x128.Idx) :
    i ∈ ((cfg6.win 3).blk t).view.set ↔ ∀ a : Fin 2, win6_3.index t a * S2048x128.size a ≤ (i a).val ∧ (i a).val < win6_3.index t a * S2048x128.size a + S2048x128.size a := by
  show i ∈ ((View.whole (Pipeline.arrRef spec6 3)).slice (win6_3.rect t)).set ↔ _
  rw [View.set_slice_whole, Rect.mem_set_unit]
  exact Iff.rfl

theorem cover_r6 (i : S16384x128.Idx) : ∃ t : Fin cfg6.N, (cfg6.win 3).flush t = true ∧ i ∈ ((cfg6.win 3).blk t).view.set := by
  have hi0 : (i 0).val < 16384 := (i 0).isLt
  have hi1 : (i 1).val < 128 := (i 1).isLt
  have hN : cfg6.N = 8 := N_6
  obtain ⟨t, ht⟩ : ∃ t : Fin cfg6.N, t.val = (i 0).val / 2048 := ⟨⟨(i 0).val / 2048, by omega⟩, rfl⟩
  obtain ⟨-, -, -, -, -, -, e6, e7⟩ := idx_facts_r6 t
  refine ⟨t, flush6_3 t, ?_⟩
  rw [mem_blk_r6]
  intro a
  match a with
  | ⟨0, _⟩ => show win6_3.index t (0 : Fin 2) * 2048 ≤ (i 0).val ∧ (i 0).val < win6_3.index t (0 : Fin 2) * 2048 + 2048; omega
  | ⟨1, _⟩ => show win6_3.index t (1 : Fin 2) * 128 ≤ (i 1).val ∧ (i 1).val < win6_3.index t (1 : Fin 2) * 128 + 128; omega

-- Block `t` of the output is rows `2048·t … 2048·t + 2047` of `x · w + b`, and the eight blocks tile the array.
theorem denseValue_r6 (c : Dev nD) :
    (dat6 V c).arrAt 3 cfg6.N = Cert.Spec.dense (V c (Pipeline.arrRef spec6 0)) (V c (Pipeline.arrRef spec6 1)) (V c (Pipeline.arrRef spec6 2)) :=
  (dat6 V c).arrAt_eq_of_cover 3 (G_r6 V c) (fun t _ => flushed_eq_r6 V c t) cover_r6

end Cert.KernelIdeal.Val
-- ==== Proof.PayReduce.lean ====
import proofs.«149749_j996432413323_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem lhs_mm_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl

theorem lhs_mm_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q

theorem rhs_mm_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q

theorem rhs_mm_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

theorem mm_apply {φ₁ φ₂ : FTy} (x0 : FVec Ideal S1024x1024 φ₁) (x1 : FVec Ideal S1024x512 φ₂) (p : Fin 1024) (q : Fin 512) :
    matmul (F := Ideal) dot_S1024x1024_S1024x512_S1024x512_1_0_0_1_n_n none x0 x1 (constant (F := Ideal) S1024x512 .f32 0x00000000#32) (ix2 p q)
      = ∑ l : Fin 1024, x0 (ix2 p l) * x1 (ix2 l q) := by
  refine (Ideal.matmul_constant_zero_apply dot_S1024x1024_S1024x512_S1024x512_1_0_0_1_n_n none x0 x1 (ix2 p q)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

theorem bias_apply (b : Vec Ideal S1x512 .f32) (p : Fin 1024) (q : Fin 512) :
    broadcastTo S1024x512 b broadcasts_S1x512_S1024x512 (ix2 p q) = b (ix2 0 q) :=
  broadcastTo_apply b broadcasts_S1x512_S1024x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

theorem k1_pay1_apply (p : Fin 1024) (q : Fin 512) : k1_pay1 (F := Ideal) (ix2 p q) = 0 := by
  unfold k1_pay1
  rw [shapeCast_self]
  show Ideal.ofBits .f32 0x00000000#32 = 0
  exact Ideal.ofBits_zero_f32

theorem k1_pay2_apply (x0 : Vec Ideal S1024x1024 .f32) (x1 : Vec Ideal S1024x512 .f32) (xs : Vec Ideal S1024x512 .f32) (p : Fin 1024) (q : Fin 512) :
    k1_pay2 (F := Ideal) x0 x1 xs (ix2 p q) = xs (ix2 p q) + ∑ l : Fin 1024, x0 (ix2 p l) * x1 (ix2 l q) := by
  unfold k1_pay2
  rw [shapeCast_self, shapeCast_self, addf_apply, mm_apply]
  rfl

theorem k1_pay3_apply (a : Vec Ideal S1024x512 .f32) (b : Vec Ideal S1x512 .f32) (p : Fin 1024) (q : Fin 512) :
    k1_pay3 (F := Ideal) a b (ix2 p q) = max (a (ix2 p q) + b (ix2 0 q)) 0 := by
  unfold k1_pay3
  rw [shapeCast_self, maximumf_apply, addf_apply, bias_apply, broadcast_apply]
  show max _ (Ideal.ofBits .f32 0x00000000#32) = _
  rw [Ideal.ofBits_zero_f32]

end Cert.KernelIdeal.Val
-- ==== Proof.ReduceValue1.lean ====
import proofs.«149749_j996432413323_1_alg».proof.Proof.Reduce1
import proofs.«149749_j996432413323_1_alg».proof.Proof.PayReduce
import proofs.«149749_j996432413323_1_alg».proof.Proof.Spec
import Idealize.ShloMosaic.Lib.Pipeline.Value
import Idealize.ShloMosaic.Lib.ValueIdx
import Idealize.ShloMosaic.Lib.Tactic
import Mathlib.Algebra.BigOperators.Fin
import Mathlib.Algebra.BigOperators.Group.Finset.Basic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)
open scoped BigOperators

variable {F : FTy → Type} [FloatOps F]

theorem hz_r1 : (![0, 0] : Fin 2 → Nat) = fun _ => 0 := funext fun a => by fin_cases a <;> rfl

section
variable (VS : View sig .tc .vmem S1024x512 .f32) (c : Dev nD) (i : grid1.Coords) (arg2 : Memref sig .tc .vmem S1024x1024 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole)

theorem sout_B_r1 (hc0 : ¬cond1_0 i) (hc1 : ¬cond1_1 i) (x0 : Vec F S1024x1024 .f32) (x1 : Vec F S1024x512 .f32) (x2 : Vec F S1x512 .f32) (xs0 : Vec F S1024x512 .f32) :
    sout1_B_0 VS c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz_r1]
  simp only [View.readAt_eq_ld, harg2.read_unread, harg3.read_unread, harg4.read_unread, harg6.read_unread, View.ld_unit_zero (S := S1024x1024) hz_r1, View.ld_unit_zero (S := S1024x512) hz_r1, View.ld_unit_zero (S := S1x512) hz_r1]

theorem sout_C_r1 (hc0 : ¬cond1_0 i) (hc1 : cond1_1 i) (x0 : Vec F S1024x1024 .f32) (x1 : Vec F S1024x512 .f32) (x2 : Vec F S1x512 .f32) (xs0 : Vec F S1024x512 .f32) :
    sout1_C_0 VS c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz_r1]
  simp only [View.readAt_eq_ld, harg2.read_unread, harg3.read_unread, harg4.read_unread, harg6.read_unread, View.ld_unit_zero (S := S1024x1024) hz_r1, View.ld_unit_zero (S := S1024x512) hz_r1, View.ld_unit_zero (S := S1x512) hz_r1]

theorem out_C_r1 (hc0 : ¬cond1_0 i) (hc1 : cond1_1 i) (x0 : Vec F S1024x1024 .f32) (x1 : Vec F S1024x512 .f32) (x2 : Vec F S1x512 .f32) (xs0 : Vec F S1024x512 .f32) :
    out1_C_3 VS c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz_r1]
  simp only [View.readAt_eq_ld, harg2.read_unread, harg3.read_unread, harg4.read_unread, harg6.read_unread, View.ld_unit_zero (S := S1024x1024) hz_r1, View.ld_unit_zero (S := S1024x512) hz_r1, View.ld_unit_zero (S := S1x512) hz_r1, View.readCov_unit_zero (S := S1024x512) _ hz_r1]

theorem sout_A_r1 (hc0 : cond1_0 i) (hc1 : ¬cond1_1 i) (x0 : Vec F S1024x1024 .f32) (x1 : Vec F S1024x512 .f32) (x2 : Vec F S1x512 .f32) :
    sout1_A_0 VS c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x512) hz_r1, View.readCov_unit_zero (S := S1024x512) _ hz_r1]
  simp only [View.readAt_eq_ld, harg2.read_unread, harg3.read_unread, harg4.read_unread, harg6.read_unread, View.ld_unit_zero (S := S1024x1024) hz_r1, View.ld_unit_zero (S := S1024x512) hz_r1, View.ld_unit_zero (S := S1x512) hz_r1]

end

theorem idx_facts_r1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

section Blocks
variable (V : (c : Dev nD) → (b : Ref sig .tc) → Buf (Elt F) ((c : Thread nD τ).loc b))

abbrev adj_r1 (c : Dev nD) : Vec F S16384x16384 .f32 := V c (Pipeline.arrRef spec1 0)
abbrev sup_r1 (c : Dev nD) : Vec F S16384x512 .f32 := V c (Pipeline.arrRef spec1 1)
abbrev bias_r1 (c : Dev nD) : Vec F S1x512 .f32 := V c (Pipeline.arrRef spec1 2)

abbrev adjBlk_r1 (c : Dev nD) (t : Fin cfg1.N) : Vec F S1024x1024 .f32 := iblk1 V c 0 t
abbrev supBlk_r1 (c : Dev nD) (t : Fin cfg1.N) : Vec F S1024x512 .f32 := iblk1 V c 1 t
abbrev biasBlk_r1 (c : Dev nD) (t : Fin cfg1.N) : Vec F S1x512 .f32 := iblk1 V c 2 t

theorem adjBlk_apply_r1 (c : Dev nD) (t : Fin cfg1.N) (p l : Fin 1024) (r s : Fin 16384)
    (hr : r.val = 1024 * (t.val / 16) + p.val) (hs : s.val = 1024 * (t.val % 16) + l.val) :
    adjBlk_r1 V c t (ix2 p l) = adj_r1 V c (ix2 r s) := by
  obtain ⟨e0, e1, -⟩ := idx_facts_r1 t
  show iblk1 V c 0 t (ix2 p l) = _
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 1024 + 1 * p.val = r.val; omega
  | ⟨1, _⟩ => show win1_0.index t (1 : Fin 2) * 1024 + 1 * l.val = s.val; omega

theorem supBlk_apply_r1 (c : Dev nD) (t : Fin cfg1.N) (l : Fin 1024) (q : Fin 512) (s : Fin 16384)
    (hs : s.val = 1024 * (t.val % 16) + l.val) :
    supBlk_r1 V c t (ix2 l q) = sup_r1 V c (ix2 s q) := by
  obtain ⟨-, -, e2, e3, -⟩ := idx_facts_r1 t
  show iblk1 V c 1 t (ix2 l q) = _
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1024 + 1 * l.val = s.val; omega
  | ⟨1, _⟩ => show win1_1.index t (1 : Fin 2) * 512 + 1 * q.val = q.val; omega

theorem biasBlk_apply_r1 (c : Dev nD) (t : Fin cfg1.N) (q : Fin 512) :
    biasBlk_r1 V c t (ix2 0 q) = bias_r1 V c (ix2 0 q) := by
  obtain ⟨-, -, -, -, e4, e5, -⟩ := idx_facts_r1 t
  show iblk1 V c 2 t (ix2 0 q) = _
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = q.val; omega

end Blocks

section AtIdeal
variable (V : (c : Dev nD) → (b : Ref sig .tc) → Buf (Elt Ideal) ((c : Thread nD τ).loc b))

def term_r1 (c : Dev nD) (r : Fin 16384) (q : Fin 512) (s : ℕ) : EReal :=
  if h : s < 16384 then adj_r1 V c (ix2 r ⟨s, h⟩) * sup_r1 V c (ix2 ⟨s, h⟩ q) else 0

theorem range_step_r1 (f : ℕ → EReal) (k : ℕ) :
    ∑ s ∈ Finset.range (1024 * (k + 1)), f s = ∑ s ∈ Finset.range (1024 * k), f s + ∑ l : Fin 1024, f (1024 * k + l.val) := by
  rw [show 1024 * (k + 1) = 1024 * k + 1024 from by omega, Finset.sum_range_add, Finset.sum_range (fun l => f (1024 * k + l))]

theorem blockTerms_r1 (c : Dev nD) (t : Fin cfg1.N) (p : Fin 1024) (q : Fin 512) (r : Fin 16384)
    (hr : r.val = 1024 * (t.val / 16) + p.val) :
    ∑ l : Fin 1024, adjBlk_r1 V c t (ix2 p l) * supBlk_r1 V c t (ix2 l q)
      = ∑ l : Fin 1024, term_r1 V c r q (1024 * (t.val % 16) + l.val) := by
  refine Finset.sum_congr rfl fun l _ => ?_
  have hl : 1024 * (t.val % 16) + l.val < 16384 := by have := l.isLt; omega
  unfold term_r1
  rw [dif_pos hl, adjBlk_apply_r1 V c t p l r ⟨_, hl⟩ hr rfl, supBlk_apply_r1 V c t l q ⟨_, hl⟩ rfl]

-- After step `k` of a row block the accumulator holds the partial sums over the first `k + 1` column blocks.
theorem acc_r1 (c : Dev nD) : ∀ (n : ℕ) (hn : n < cfg1.N) (p : Fin 1024) (q : Fin 512) (r : Fin 16384),
    r.val = 1024 * (n / 16) + p.val →
    (outsAt1 V c n hn).2 (ix2 p q) = ∑ s ∈ Finset.range (1024 * (n % 16 + 1)), term_r1 V c r q s := by
  intro n
  induction n using Nat.strong_induction_on with
  | _ n IH =>
    intro hn p q r hr
    have hN : n < 256 := lt_of_lt_of_eq hn (show cfg1.N = 256 from N_1)
    rw [range_step_r1]
    by_cases h1 : n % 16 = 15
    · have h0 : ¬ n % 16 = 0 := by omega
      have ih := IH (n - 1) (by omega) (by omega) p q r (by omega)
      rw [show (n - 1) % 16 + 1 = n % 16 from by omega] at ih
      rw [outsAt1_C V c ⟨n, hn⟩ h0 h1]; dsimp only
      refine (congrFun (sout_C_r1 (F := Ideal) VS1_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) (Nat.lt_of_le_of_lt (Nat.sub_le _ _) hn)).2) (ix2 p q)).trans ?_
      refine (k1_pay2_apply (iblk1 V c 0 ⟨n, hn⟩) (iblk1 V c 1 ⟨n, hn⟩) _ p q).trans ?_
      rw [ih]
      exact congrArg _ (blockTerms_r1 V c ⟨n, hn⟩ p q r hr)
    · by_cases h0 : n % 16 = 0
      · rw [outsAt1_A V c ⟨n, hn⟩ h0 h1]; dsimp only
        refine (congrFun (sout_A_r1 (F := Ideal) VS1_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)) (ix2 p q)).trans ?_
        refine (k1_pay2_apply (iblk1 V c 0 ⟨n, hn⟩) (iblk1 V c 1 ⟨n, hn⟩) _ p q).trans ?_
        rw [k1_pay1_apply, h0, Nat.mul_zero, Finset.range_zero, Finset.sum_empty]
        exact congrArg _ ((blockTerms_r1 V c ⟨n, hn⟩ p q r hr).trans (by rw [show (⟨n, hn⟩ : Fin cfg1.N).val % 16 = 0 from h0]))
      · have ih := IH (n - 1) (by omega) (by omega) p q r (by omega)
        rw [show (n - 1) % 16 + 1 = n % 16 from by omega] at ih
        rw [outsAt1_B V c ⟨n, hn⟩ h0 h1]; dsimp only
        refine (congrFun (sout_B_r1 (F := Ideal) VS1_0 c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) (Nat.lt_of_le_of_lt (Nat.sub_le _ _) hn)).2) (ix2 p q)).trans ?_
        refine (k1_pay2_apply (iblk1 V c 0 ⟨n, hn⟩) (iblk1 V c 1 ⟨n, hn⟩) _ p q).trans ?_
        rw [ih]
        exact congrArg _ (blockTerms_r1 V c ⟨n, hn⟩ p q r hr)

theorem sumAll_r1 (c : Dev nD) (r : Fin 16384) (q : Fin 512) :
    ∑ s ∈ Finset.range (1024 * (15 + 1)), term_r1 V c r q s
      = ∑ l : Fin 16384, adj_r1 V c (ix2 r l) * sup_r1 V c (ix2 l q) := by
  rw [show 1024 * (15 + 1) = 16384 from rfl, Finset.sum_range]
  refine Finset.sum_congr rfl fun l _ => ?_
  unfold term_r1
  rw [dif_pos l.isLt]

theorem out_r1 (c : Dev nD) (t : Fin cfg1.N) (h1 : t.val % 16 = 15) (p : Fin 1024) (q : Fin 512) (r : Fin 16384)
    (hr : r.val = 1024 * (t.val / 16) + p.val) :
    (outsAt1 V c t.val t.isLt).1 (ix2 p q) = Cert.Spec.gcAt (adj_r1 V c) (sup_r1 V c) (bias_r1 V c) r q := by
  have h0 : ¬ t.val % 16 = 0 := by omega
  have hacc := acc_r1 V c t.val t.isLt p q r hr
  rw [h1, sumAll_r1] at hacc
  rw [outsAt1_C V c t h0 h1] at hacc ⊢
  dsimp only at hacc ⊢
  rw [sout_C_r1 (F := Ideal) VS1_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2] at hacc
  refine (congrFun (out_C_r1 (F := Ideal) VO1_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 p q)).trans ?_
  refine (k1_pay3_apply _ (iblk1 V c 2 t) p q).trans ?_
  rw [hacc]
  unfold Cert.Spec.gcAt
  exact congrArg (fun x => max (_ + x) 0) (biasBlk_apply_r1 V c t q)

theorem flushed_eq_r1 (c : Dev nD) (t : Fin cfg1.N) (hf : (cfg1.win 3).flush t = true) :
    (dat1 V c).flushed 3 t
      = ((cfg1.win 3).blk t).view.read (Elt Ideal) (Cert.Spec.gc (adj_r1 V c) (sup_r1 V c) (bias_r1 V c)) := by
  have h1 : t.val % 16 = 15 := (flush1_3 t).mp hf
  have hN : t.val < 256 := lt_of_lt_of_eq t.isLt (show cfg1.N = 256 from N_1)
  obtain ⟨-, -, -, -, -, -, e6, e7⟩ := idx_facts_r1 t
  show (cfg1.win 3).cut (grid1.coords t) ((dat1 V c).after 3 t) = _
  rw [after1_3]
  funext j
  obtain ⟨p, q, rfl⟩ : ∃ (p : Fin 1024) (q : Fin 512), j = ix2 p q := ⟨j 0, j 1, eq_ix2 j⟩
  rw [View.read_apply]
  have hemb : ((cfg1.win 3).blk t).view.emb (ix2 p q) = ix2 (⟨1024 * (t.val / 16) + p.val, by have := p.isLt; omega⟩ : Fin 16384) q :=
    funext fun a => Fin.ext (by
      match a with
      | ⟨0, _⟩ => show win1_3.index t (0 : Fin 2) * 1024 + 1 * p.val = 1024 * (t.val / 16) + p.val; omega
      | ⟨1, _⟩ => show win1_3.index t (1 : Fin 2) * 512 + 1 * q.val = q.val; omega)
  show (outsAt1 V c t.val t.isLt).1 (ix2 p q) = Cert.Spec.gc (adj_r1 V c) (sup_r1 V c) (bias_r1 V c) (((cfg1.win 3).blk t).view.emb (ix2 p q))
  rw [hemb, Cert.Spec.gc_apply]
  exact out_r1 V c t h1 p q _ rfl

theorem cover_r1 (c : Dev nD) (i : S16384x512.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  have hN : cfg1.N = 256 := N_1
  have ht : 16 * ((i 0).val / 1024) + 15 < cfg1.N := by omega
  obtain ⟨-, -, -, -, -, -, e6, e7⟩ := idx_facts_r1 ⟨16 * ((i 0).val / 1024) + 15, ht⟩
  refine ⟨⟨16 * ((i 0).val / 1024) + 15, ht⟩, (flush1_3 _).mpr (by dsimp only; omega), ?_⟩
  change i ∈ ((View.whole (Pipeline.arrRef spec1 3)).slice (win1_3.rect ⟨16 * ((i 0).val / 1024) + 15, ht⟩)).set
  rw [View.set_slice_whole, Rect.mem_set_unit]
  intro a
  dsimp only at e6 e7
  match a with
  | ⟨0, _⟩ =>
    show win1_3.index ⟨16 * ((i 0).val / 1024) + 15, ht⟩ (0 : Fin 2) * 1024 ≤ (i 0).val ∧ (i 0).val < win1_3.index ⟨16 * ((i 0).val / 1024) + 15, ht⟩ (0 : Fin 2) * 1024 + 1024
    omega
  | ⟨1, _⟩ =>
    show win1_3.index ⟨16 * ((i 0).val / 1024) + 15, ht⟩ (1 : Fin 2) * 512 ≤ (i 1).val ∧ (i 1).val < win1_3.index ⟨16 * ((i 0).val / 1024) + 15, ht⟩ (1 : Fin 2) * 512 + 512
    omega

end AtIdeal

-- The sixteen block sums of a row are its whole sum; bias and clip are applied once, at the last step.
theorem reduceValue_r1 (V : (c : Dev nD) → (b : Ref sig .tc) → Buf (Elt Ideal) ((c : Thread nD τ).loc b)) (c : Dev nD) :
    (Cert.KernelIdeal.Hand.dat1 V c).arrAt 3 cfg1.N
      = Cert.Spec.gc (V c (Pipeline.arrRef spec1 0)) (V c (Pipeline.arrRef spec1 1)) (V c (Pipeline.arrRef spec1 2)) :=
  (Cert.KernelIdeal.Hand.dat1 V c).arrAt_eq_of_cover 3 _ (flushed_eq_r1 V c) (cover_r1 c)

end Cert.KernelIdeal.Val
-- ==== Proof.ReduceValue3.lean ====
import proofs.«149749_j996432413323_1_alg».proof.Proof.Reduce3
import proofs.«149749_j996432413323_1_alg».proof.Proof.ReduceValue1
import proofs.«149749_j996432413323_1_alg».proof.Proof.PayReduce
import proofs.«149749_j996432413323_1_alg».proof.Proof.Spec
import Idealize.ShloMosaic.Lib.Pipeline.Value
import Idealize.ShloMosaic.Lib.ValueIdx
import Idealize.ShloMosaic.Lib.Tactic
import Mathlib.Algebra.BigOperators.Fin
import Mathlib.Algebra.BigOperators.Group.Finset.Basic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)
open scoped BigOperators

variable {F : FTy → Type} [FloatOps F]

theorem idx_facts_r3 : ∀ t : Fin cfg3.N,
    win3_0.index t (0 : Fin 2) = t.val / 16 ∧ win3_0.index t (1 : Fin 2) = t.val % 16
    ∧ win3_1.index t (0 : Fin 2) = t.val % 16 ∧ win3_1.index t (1 : Fin 2) = 0
    ∧ win3_2.index t (0 : Fin 2) = 0 ∧ win3_2.index t (1 : Fin 2) = 0
    ∧ win3_3.index t (0 : Fin 2) = t.val / 16 ∧ win3_3.index t (1 : Fin 2) = 0 :=
  (by decide +kernel : ∀ t : Fin grid3.N, _)

section Blocks
variable (V : (c : Dev nD) → (b : Ref sig .tc) → Buf (Elt F) ((c : Thread nD τ).loc b))

abbrev adj_r3 (c : Dev nD) : Vec F S16384x16384 .f32 := V c (Pipeline.arrRef spec3 0)
abbrev sup_r3 (c : Dev nD) : Vec F S16384x512 .f32 := V c (Pipeline.arrRef spec3 1)
abbrev bias_r3 (c : Dev nD) : Vec F S1x512 .f32 := V c (Pipeline.arrRef spec3 2)

abbrev adjBlk_r3 (c : Dev nD) (t : Fin cfg3.N) : Vec F S1024x1024 .f32 := iblk3 V c 0 t
abbrev supBlk_r3 (c : Dev nD) (t : Fin cfg3.N) : Vec F S1024x512 .f32 := iblk3 V c 1 t
abbrev biasBlk_r3 (c : Dev nD) (t : Fin cfg3.N) : Vec F S1x512 .f32 := iblk3 V c 2 t

theorem adjBlk_apply_r3 (c : Dev nD) (t : Fin cfg3.N) (p l : Fin 1024) (r s : Fin 16384)
    (hr : r.val = 1024 * (t.val / 16) + p.val) (hs : s.val = 1024 * (t.val % 16) + l.val) :
    adjBlk_r3 V c t (ix2 p l) = adj_r3 V c (ix2 r s) := by
  obtain ⟨e0, e1, -⟩ := idx_facts_r3 t
  show iblk3 V c 0 t (ix2 p l) = _
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 1024 + 1 * p.val = r.val; omega
  | ⟨1, _⟩ => show win3_0.index t (1 : Fin 2) * 1024 + 1 * l.val = s.val; omega

theorem supBlk_apply_r3 (c : Dev nD) (t : Fin cfg3.N) (l : Fin 1024) (q : Fin 512) (s : Fin 16384)
    (hs : s.val = 1024 * (t.val % 16) + l.val) :
    supBlk_r3 V c t (ix2 l q) = sup_r3 V c (ix2 s q) := by
  obtain ⟨-, -, e2, e3, -⟩ := idx_facts_r3 t
  show iblk3 V c 1 t (ix2 l q) = _
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 1024 + 1 * l.val = s.val; omega
  | ⟨1, _⟩ => show win3_1.index t (1 : Fin 2) * 512 + 1 * q.val = q.val; omega

theorem biasBlk_apply_r3 (c : Dev nD) (t : Fin cfg3.N) (q : Fin 512) :
    biasBlk_r3 V c t (ix2 0 q) = bias_r3 V c (ix2 0 q) := by
  obtain ⟨-, -, -, -, e4, e5, -⟩ := idx_facts_r3 t
  show iblk3 V c 2 t (ix2 0 q) = _
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * 0 = 0; omega
  | ⟨1, _⟩ => show win3_2.index t (1 : Fin 2) * 512 + 1 * q.val = q.val; omega

end Blocks

section AtIdeal
variable (V : (c : Dev nD) → (b : Ref sig .tc) → Buf (Elt Ideal) ((c : Thread nD τ).loc b))

def term_r3 (c : Dev nD) (r : Fin 16384) (q : Fin 512) (s : ℕ) : EReal :=
  if h : s < 16384 then adj_r3 V c (ix2 r ⟨s, h⟩) * sup_r3 V c (ix2 ⟨s, h⟩ q) else 0

theorem range_step_r3 (f : ℕ → EReal) (k : ℕ) :
    ∑ s ∈ Finset.range (1024 * (k + 1)), f s = ∑ s ∈ Finset.range (1024 * k), f s + ∑ l : Fin 1024, f (1024 * k + l.val) := by
  rw [show 1024 * (k + 1) = 1024 * k + 1024 from by omega, Finset.sum_range_add, Finset.sum_range (fun l => f (1024 * k + l))]

theorem blockTerms_r3 (c : Dev nD) (t : Fin cfg3.N) (p : Fin 1024) (q : Fin 512) (r : Fin 16384)
    (hr : r.val = 1024 * (t.val / 16) + p.val) :
    ∑ l : Fin 1024, adjBlk_r3 V c t (ix2 p l) * supBlk_r3 V c t (ix2 l q)
      = ∑ l : Fin 1024, term_r3 V c r q (1024 * (t.val % 16) + l.val) := by
  refine Finset.sum_congr rfl fun l _ => ?_
  have hl : 1024 * (t.val % 16) + l.val < 16384 := by have := l.isLt; omega
  unfold term_r3
  rw [dif_pos hl, adjBlk_apply_r3 V c t p l r ⟨_, hl⟩ hr rfl, supBlk_apply_r3 V c t l q ⟨_, hl⟩ rfl]

-- After step `k` of a row block the accumulator holds the partial sums over the first `k + 1` column blocks.
theorem acc_r3 (c : Dev nD) : ∀ (n : ℕ) (hn : n < cfg3.N) (p : Fin 1024) (q : Fin 512) (r : Fin 16384),
    r.val = 1024 * (n / 16) + p.val →
    (outsAt3 V c n hn).2 (ix2 p q) = ∑ s ∈ Finset.range (1024 * (n % 16 + 1)), term_r3 V c r q s := by
  intro n
  induction n using Nat.strong_induction_on with
  | _ n IH =>
    intro hn p q r hr
    have hN : n < 256 := lt_of_lt_of_eq hn (show cfg3.N = 256 from N_3)
    rw [range_step_r3]
    by_cases h1 : n % 16 = 15
    · have h0 : ¬ n % 16 = 0 := by omega
      have ih := IH (n - 1) (by omega) (by omega) p q r (by omega)
      rw [show (n - 1) % 16 + 1 = n % 16 from by omega] at ih
      rw [outsAt3_C V c ⟨n, hn⟩ h0 h1]; dsimp only
      refine (congrFun (sout_C_r1 (F := Ideal) VS3_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) (fun h => h0 ((hcond3_0 ⟨n, hn⟩).mp h)) ((hcond3_1 ⟨n, hn⟩).mpr h1) (iblk3 V c 0 ⟨n, hn⟩) (iblk3 V c 1 ⟨n, hn⟩) (iblk3 V c 2 ⟨n, hn⟩) (outsAt3 V c (n - 1) (Nat.lt_of_le_of_lt (Nat.sub_le _ _) hn)).2) (ix2 p q)).trans ?_
      refine (k1_pay2_apply (iblk3 V c 0 ⟨n, hn⟩) (iblk3 V c 1 ⟨n, hn⟩) _ p q).trans ?_
      rw [ih]
      exact congrArg _ (blockTerms_r3 V c ⟨n, hn⟩ p q r hr)
    · by_cases h0 : n % 16 = 0
      · rw [outsAt3_A V c ⟨n, hn⟩ h0 h1]; dsimp only
        refine (congrFun (sout_A_r1 (F := Ideal) VS3_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) ((hcond3_0 ⟨n, hn⟩).mpr h0) (fun h => h1 ((hcond3_1 ⟨n, hn⟩).mp h)) (iblk3 V c 0 ⟨n, hn⟩) (iblk3 V c 1 ⟨n, hn⟩) (iblk3 V c 2 ⟨n, hn⟩)) (ix2 p q)).trans ?_
        refine (k1_pay2_apply (iblk3 V c 0 ⟨n, hn⟩) (iblk3 V c 1 ⟨n, hn⟩) _ p q).trans ?_
        rw [k1_pay1_apply, h0, Nat.mul_zero, Finset.range_zero, Finset.sum_empty]
        exact congrArg _ ((blockTerms_r3 V c ⟨n, hn⟩ p q r hr).trans (by rw [show (⟨n, hn⟩ : Fin cfg3.N).val % 16 = 0 from h0]))
      · have ih := IH (n - 1) (by omega) (by omega) p q r (by omega)
        rw [show (n - 1) % 16 + 1 = n % 16 from by omega] at ih
        rw [outsAt3_B V c ⟨n, hn⟩ h0 h1]; dsimp only
        refine (congrFun (sout_B_r1 (F := Ideal) VS3_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) (fun h => h0 ((hcond3_0 ⟨n, hn⟩).mp h)) (fun h => h1 ((hcond3_1 ⟨n, hn⟩).mp h)) (iblk3 V c 0 ⟨n, hn⟩) (iblk3 V c 1 ⟨n, hn⟩) (iblk3 V c 2 ⟨n, hn⟩) (outsAt3 V c (n - 1) (Nat.lt_of_le_of_lt (Nat.sub_le _ _) hn)).2) (ix2 p q)).trans ?_
        refine (k1_pay2_apply (iblk3 V c 0 ⟨n, hn⟩) (iblk3 V c 1 ⟨n, hn⟩) _ p q).trans ?_
        rw [ih]
        exact congrArg _ (blockTerms_r3 V c ⟨n, hn⟩ p q r hr)

theorem sumAll_r3 (c : Dev nD) (r : Fin 16384) (q : Fin 512) :
    ∑ s ∈ Finset.range (1024 * (15 + 1)), term_r3 V c r q s
      = ∑ l : Fin 16384, adj_r3 V c (ix2 r l) * sup_r3 V c (ix2 l q) := by
  rw [show 1024 * (15 + 1) = 16384 from rfl, Finset.sum_range]
  refine Finset.sum_congr rfl fun l _ => ?_
  unfold term_r3
  rw [dif_pos l.isLt]

theorem out_r3 (c : Dev nD) (t : Fin cfg3.N) (h1 : t.val % 16 = 15) (p : Fin 1024) (q : Fin 512) (r : Fin 16384)
    (hr : r.val = 1024 * (t.val / 16) + p.val) :
    (outsAt3 V c t.val t.isLt).1 (ix2 p q) = Cert.Spec.gcAt (adj_r3 V c) (sup_r3 V c) (bias_r3 V c) r q := by
  have h0 : ¬ t.val % 16 = 0 := by omega
  have hacc := acc_r3 V c t.val t.isLt p q r hr
  rw [h1, sumAll_r3] at hacc
  rw [outsAt3_C V c t h0 h1] at hacc ⊢
  dsimp only at hacc ⊢
  rw [sout_C_r1 (F := Ideal) VS3_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2] at hacc
  refine (congrFun (out_C_r1 (F := Ideal) VO3_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 p q)).trans ?_
  refine (k1_pay3_apply _ (iblk3 V c 2 t) p q).trans ?_
  rw [hacc]
  unfold Cert.Spec.gcAt
  exact congrArg (fun x => max (_ + x) 0) (biasBlk_apply_r3 V c t q)

theorem flushed_eq_r3 (c : Dev nD) (t : Fin cfg3.N) (hf : (cfg3.win 3).flush t = true) :
    (dat3 V c).flushed 3 t
      = ((cfg3.win 3).blk t).view.read (Elt Ideal) (Cert.Spec.gc (adj_r3 V c) (sup_r3 V c) (bias_r3 V c)) := by
  have h1 : t.val % 16 = 15 := (flush3_3 t).mp hf
  have hN : t.val < 256 := lt_of_lt_of_eq t.isLt (show cfg3.N = 256 from N_3)
  obtain ⟨-, -, -, -, -, -, e6, e7⟩ := idx_facts_r3 t
  show (cfg3.win 3).cut (grid3.coords t) ((dat3 V c).after 3 t) = _
  rw [after3_3]
  funext j
  obtain ⟨p, q, rfl⟩ : ∃ (p : Fin 1024) (q : Fin 512), j = ix2 p q := ⟨j 0, j 1, eq_ix2 j⟩
  rw [View.read_apply]
  have hemb : ((cfg3.win 3).blk t).view.emb (ix2 p q) = ix2 (⟨1024 * (t.val / 16) + p.val, by have := p.isLt; omega⟩ : Fin 16384) q :=
    funext fun a => Fin.ext (by
      match a with
      | ⟨0, _⟩ => show win3_3.index t (0 : Fin 2) * 1024 + 1 * p.val = 1024 * (t.val / 16) + p.val; omega
      | ⟨1, _⟩ => show win3_3.index t (1 : Fin 2) * 512 + 1 * q.val = q.val; omega)
  show (outsAt3 V c t.val t.isLt).1 (ix2 p q) = Cert.Spec.gc (adj_r3 V c) (sup_r3 V c) (bias_r3 V c) (((cfg3.win 3).blk t).view.emb (ix2 p q))
  rw [hemb, Cert.Spec.gc_apply]
  exact out_r3 V c t h1 p q _ rfl

theorem cover_r3 (c : Dev nD) (i : S16384x512.Idx) :
    ∃ t : Fin cfg3.N, (cfg3.win 3).flush t = true ∧ i ∈ ((cfg3.win 3).blk t).view.set := by
  have hi0 : (i 0).val < 16384 := (i 0).isLt
  have hi1 : (i 1).val < 512 := (i 1).isLt
  have hN : cfg3.N = 256 := N_3
  have ht : 16 * ((i 0).val / 1024) + 15 < cfg3.N := by omega
  obtain ⟨-, -, -, -, -, -, e6, e7⟩ := idx_facts_r3 ⟨16 * ((i 0).val / 1024) + 15, ht⟩
  refine ⟨⟨16 * ((i 0).val / 1024) + 15, ht⟩, (flush3_3 _).mpr (by dsimp only; omega), ?_⟩
  change i ∈ ((View.whole (Pipeline.arrRef spec3 3)).slice (win3_3.rect ⟨16 * ((i 0).val / 1024) + 15, ht⟩)).set
  rw [View.set_slice_whole, Rect.mem_set_unit]
  intro a
  dsimp only at e6 e7
  match a with
  | ⟨0, _⟩ =>
    show win3_3.index ⟨16 * ((i 0).val / 1024) + 15, ht⟩ (0 : Fin 2) * 1024 ≤ (i 0).val ∧ (i 0).val < win3_3.index ⟨16 * ((i 0).val / 1024) + 15, ht⟩ (0 : Fin 2) * 1024 + 1024
    omega
  | ⟨1, _⟩ =>
    show win3_3.index ⟨16 * ((i 0).val / 1024) + 15, ht⟩ (1 : Fin 2) * 512 ≤ (i 1).val ∧ (i 1).val < win3_3.index ⟨16 * ((i 0).val / 1024) + 15, ht⟩ (1 : Fin 2) * 512 + 512
    omega

end AtIdeal

-- The sixteen block sums of a row are its whole sum; bias and clip are applied once, at the last step.
theorem reduceValue_r3 (V : (c : Dev nD) → (b : Ref sig .tc) → Buf (Elt Ideal) ((c : Thread nD τ).loc b)) (c : Dev nD) :
    (Cert.KernelIdeal.Hand.dat3 V c).arrAt 3 cfg3.N
      = Cert.Spec.gc (V c (Pipeline.arrRef spec3 0)) (V c (Pipeline.arrRef spec3 1)) (V c (Pipeline.arrRef spec3 2)) :=
  (Cert.KernelIdeal.Hand.dat3 V c).arrAt_eq_of_cover 3 _ (flushed_eq_r3 V c) (cover_r3 c)

end Cert.KernelIdeal.Val
-- ==== Proof.ReduceValue5.lean ====
import proofs.«149749_j996432413323_1_alg».proof.Proof.Reduce5
import proofs.«149749_j996432413323_1_alg».proof.Proof.ReduceValue1
import proofs.«149749_j996432413323_1_alg».proof.Proof.PayReduce
import proofs.«149749_j996432413323_1_alg».proof.Proof.Spec
import Idealize.ShloMosaic.Lib.Pipeline.Value
import Idealize.ShloMosaic.Lib.ValueIdx
import Idealize.ShloMosaic.Lib.Tactic
import Mathlib.Algebra.BigOperators.Fin
import Mathlib.Algebra.BigOperators.Group.Finset.Basic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)
open scoped BigOperators

variable {F : FTy → Type} [FloatOps F]

theorem idx_facts_r5 : ∀ t : Fin cfg5.N,
    win5_0.index t (0 : Fin 2) = t.val / 16 ∧ win5_0.index t (1 : Fin 2) = t.val % 16
    ∧ win5_1.index t (0 : Fin 2) = t.val % 16 ∧ win5_1.index t (1 : Fin 2) = 0
    ∧ win5_2.index t (0 : Fin 2) = 0 ∧ win5_2.index t (1 : Fin 2) = 0
    ∧ win5_3.index t (0 : Fin 2) = t.val / 16 ∧ win5_3.index t (1 : Fin 2) = 0 :=
  (by decide +kernel : ∀ t : Fin grid5.N, _)

section Blocks
variable (V : (c : Dev nD) → (b : Ref sig .tc) → Buf (Elt F) ((c : Thread nD τ).loc b))

abbrev adj_r5 (c : Dev nD) : Vec F S16384x16384 .f32 := V c (Pipeline.arrRef spec5 0)
abbrev sup_r5 (c : Dev nD) : Vec F S16384x512 .f32 := V c (Pipeline.arrRef spec5 1)
abbrev bias_r5 (c : Dev nD) : Vec F S1x512 .f32 := V c (Pipeline.arrRef spec5 2)

abbrev adjBlk_r5 (c : Dev nD) (t : Fin cfg5.N) : Vec F S1024x1024 .f32 := iblk5 V c 0 t
abbrev supBlk_r5 (c : Dev nD) (t : Fin cfg5.N) : Vec F S1024x512 .f32 := iblk5 V c 1 t
abbrev biasBlk_r5 (c : Dev nD) (t : Fin cfg5.N) : Vec F S1x512 .f32 := iblk5 V c 2 t

theorem adjBlk_apply_r5 (c : Dev nD) (t : Fin cfg5.N) (p l : Fin 1024) (r s : Fin 16384)
    (hr : r.val = 1024 * (t.val / 16) + p.val) (hs : s.val = 1024 * (t.val % 16) + l.val) :
    adjBlk_r5 V c t (ix2 p l) = adj_r5 V c (ix2 r s) := by
  obtain ⟨e0, e1, -⟩ := idx_facts_r5 t
  show iblk5 V c 0 t (ix2 p l) = _
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 1024 + 1 * p.val = r.val; omega
  | ⟨1, _⟩ => show win5_0.index t (1 : Fin 2) * 1024 + 1 * l.val = s.val; omega

theorem supBlk_apply_r5 (c : Dev nD) (t : Fin cfg5.N) (l : Fin 1024) (q : Fin 512) (s : Fin 16384)
    (hs : s.val = 1024 * (t.val % 16) + l.val) :
    supBlk_r5 V c t (ix2 l q) = sup_r5 V c (ix2 s q) := by
  obtain ⟨-, -, e2, e3, -⟩ := idx_facts_r5 t
  show iblk5 V c 1 t (ix2 l q) = _
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 1024 + 1 * l.val = s.val; omega
  | ⟨1, _⟩ => show win5_1.index t (1 : Fin 2) * 512 + 1 * q.val = q.val; omega

theorem biasBlk_apply_r5 (c : Dev nD) (t : Fin cfg5.N) (q : Fin 512) :
    biasBlk_r5 V c t (ix2 0 q) = bias_r5 V c (ix2 0 q) := by
  obtain ⟨-, -, -, -, e4, e5, -⟩ := idx_facts_r5 t
  show iblk5 V c 2 t (ix2 0 q) = _
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 1 + 1 * 0 = 0; omega
  | ⟨1, _⟩ => show win5_2.index t (1 : Fin 2) * 512 + 1 * q.val = q.val; omega

end Blocks

section AtIdeal
variable (V : (c : Dev nD) → (b : Ref sig .tc) → Buf (Elt Ideal) ((c : Thread nD τ).loc b))

def term_r5 (c : Dev nD) (r : Fin 16384) (q : Fin 512) (s : ℕ) : EReal :=
  if h : s < 16384 then adj_r5 V c (ix2 r ⟨s, h⟩) * sup_r5 V c (ix2 ⟨s, h⟩ q) else 0

theorem range_step_r5 (f : ℕ → EReal) (k : ℕ) :
    ∑ s ∈ Finset.range (1024 * (k + 1)), f s = ∑ s ∈ Finset.range (1024 * k), f s + ∑ l : Fin 1024, f (1024 * k + l.val) := by
  rw [show 1024 * (k + 1) = 1024 * k + 1024 from by omega, Finset.sum_range_add, Finset.sum_range (fun l => f (1024 * k + l))]

theorem blockTerms_r5 (c : Dev nD) (t : Fin cfg5.N) (p : Fin 1024) (q : Fin 512) (r : Fin 16384)
    (hr : r.val = 1024 * (t.val / 16) + p.val) :
    ∑ l : Fin 1024, adjBlk_r5 V c t (ix2 p l) * supBlk_r5 V c t (ix2 l q)
      = ∑ l : Fin 1024, term_r5 V c r q (1024 * (t.val % 16) + l.val) := by
  refine Finset.sum_congr rfl fun l _ => ?_
  have hl : 1024 * (t.val % 16) + l.val < 16384 := by have := l.isLt; omega
  unfold term_r5
  rw [dif_pos hl, adjBlk_apply_r5 V c t p l r ⟨_, hl⟩ hr rfl, supBlk_apply_r5 V c t l q ⟨_, hl⟩ rfl]

-- After step `k` of a row block the accumulator holds the partial sums over the first `k + 1` column blocks.
theorem acc_r5 (c : Dev nD) : ∀ (n : ℕ) (hn : n < cfg5.N) (p : Fin 1024) (q : Fin 512) (r : Fin 16384),
    r.val = 1024 * (n / 16) + p.val →
    (outsAt5 V c n hn).2 (ix2 p q) = ∑ s ∈ Finset.range (1024 * (n % 16 + 1)), term_r5 V c r q s := by
  intro n
  induction n using Nat.strong_induction_on with
  | _ n IH =>
    intro hn p q r hr
    have hN : n < 256 := lt_of_lt_of_eq hn (show cfg5.N = 256 from N_5)
    rw [range_step_r5]
    by_cases h1 : n % 16 = 15
    · have h0 : ¬ n % 16 = 0 := by omega
      have ih := IH (n - 1) (by omega) (by omega) p q r (by omega)
      rw [show (n - 1) % 16 + 1 = n % 16 from by omega] at ih
      rw [outsAt5_C V c ⟨n, hn⟩ h0 h1]; dsimp only
      refine (congrFun (sout_C_r1 (F := Ideal) VS5_0 c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5_0 (Memref.isWhole_whole _) (fun h => h0 ((hcond5_0 ⟨n, hn⟩).mp h)) ((hcond5_1 ⟨n, hn⟩).mpr h1) (iblk5 V c 0 ⟨n, hn⟩) (iblk5 V c 1 ⟨n, hn⟩) (iblk5 V c 2 ⟨n, hn⟩) (outsAt5 V c (n - 1) (Nat.lt_of_le_of_lt (Nat.sub_le _ _) hn)).2) (ix2 p q)).trans ?_
      refine (k1_pay2_apply (iblk5 V c 0 ⟨n, hn⟩) (iblk5 V c 1 ⟨n, hn⟩) _ p q).trans ?_
      rw [ih]
      exact congrArg _ (blockTerms_r5 V c ⟨n, hn⟩ p q r hr)
    · by_cases h0 : n % 16 = 0
      · rw [outsAt5_A V c ⟨n, hn⟩ h0 h1]; dsimp only
        refine (congrFun (sout_A_r1 (F := Ideal) VS5_0 c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5_0 (Memref.isWhole_whole _) ((hcond5_0 ⟨n, hn⟩).mpr h0) (fun h => h1 ((hcond5_1 ⟨n, hn⟩).mp h)) (iblk5 V c 0 ⟨n, hn⟩) (iblk5 V c 1 ⟨n, hn⟩) (iblk5 V c 2 ⟨n, hn⟩)) (ix2 p q)).trans ?_
        refine (k1_pay2_apply (iblk5 V c 0 ⟨n, hn⟩) (iblk5 V c 1 ⟨n, hn⟩) _ p q).trans ?_
        rw [k1_pay1_apply, h0, Nat.mul_zero, Finset.range_zero, Finset.sum_empty]
        exact congrArg _ ((blockTerms_r5 V c ⟨n, hn⟩ p q r hr).trans (by rw [show (⟨n, hn⟩ : Fin cfg5.N).val % 16 = 0 from h0]))
      · have ih := IH (n - 1) (by omega) (by omega) p q r (by omega)
        rw [show (n - 1) % 16 + 1 = n % 16 from by omega] at ih
        rw [outsAt5_B V c ⟨n, hn⟩ h0 h1]; dsimp only
        refine (congrFun (sout_B_r1 (F := Ideal) VS5_0 c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5_0 (Memref.isWhole_whole _) (fun h => h0 ((hcond5_0 ⟨n, hn⟩).mp h)) (fun h => h1 ((hcond5_1 ⟨n, hn⟩).mp h)) (iblk5 V c 0 ⟨n, hn⟩) (iblk5 V c 1 ⟨n, hn⟩) (iblk5 V c 2 ⟨n, hn⟩) (outsAt5 V c (n - 1) (Nat.lt_of_le_of_lt (Nat.sub_le _ _) hn)).2) (ix2 p q)).trans ?_
        refine (k1_pay2_apply (iblk5 V c 0 ⟨n, hn⟩) (iblk5 V c 1 ⟨n, hn⟩) _ p q).trans ?_
        rw [ih]
        exact congrArg _ (blockTerms_r5 V c ⟨n, hn⟩ p q r hr)

theorem sumAll_r5 (c : Dev nD) (r : Fin 16384) (q : Fin 512) :
    ∑ s ∈ Finset.range (1024 * (15 + 1)), term_r5 V c r q s
      = ∑ l : Fin 16384, adj_r5 V c (ix2 r l) * sup_r5 V c (ix2 l q) := by
  rw [show 1024 * (15 + 1) = 16384 from rfl, Finset.sum_range]
  refine Finset.sum_congr rfl fun l _ => ?_
  unfold term_r5
  rw [dif_pos l.isLt]

theorem out_r5 (c : Dev nD) (t : Fin cfg5.N) (h1 : t.val % 16 = 15) (p : Fin 1024) (q : Fin 512) (r : Fin 16384)
    (hr : r.val = 1024 * (t.val / 16) + p.val) :
    (outsAt5 V c t.val t.isLt).1 (ix2 p q) = Cert.Spec.gcAt (adj_r5 V c) (sup_r5 V c) (bias_r5 V c) r q := by
  have h0 : ¬ t.val % 16 = 0 := by omega
  have hacc := acc_r5 V c t.val t.isLt p q r hr
  rw [h1, sumAll_r5] at hacc
  rw [outsAt5_C V c t h0 h1] at hacc ⊢
  dsimp only at hacc ⊢
  rw [sout_C_r1 (F := Ideal) VS5_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2] at hacc
  refine (congrFun (out_C_r1 (F := Ideal) VO5_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) (ix2 p q)).trans ?_
  refine (k1_pay3_apply _ (iblk5 V c 2 t) p q).trans ?_
  rw [hacc]
  unfold Cert.Spec.gcAt
  exact congrArg (fun x => max (_ + x) 0) (biasBlk_apply_r5 V c t q)

theorem flushed_eq_r5 (c : Dev nD) (t : Fin cfg5.N) (hf : (cfg5.win 3).flush t = true) :
    (dat5 V c).flushed 3 t
      = ((cfg5.win 3).blk t).view.read (Elt Ideal) (Cert.Spec.gc (adj_r5 V c) (sup_r5 V c) (bias_r5 V c)) := by
  have h1 : t.val % 16 = 15 := (flush5_3 t).mp hf
  have hN : t.val < 256 := lt_of_lt_of_eq t.isLt (show cfg5.N = 256 from N_5)
  obtain ⟨-, -, -, -, -, -, e6, e7⟩ := idx_facts_r5 t
  show (cfg5.win 3).cut (grid5.coords t) ((dat5 V c).after 3 t) = _
  rw [after5_3]
  funext j
  obtain ⟨p, q, rfl⟩ : ∃ (p : Fin 1024) (q : Fin 512), j = ix2 p q := ⟨j 0, j 1, eq_ix2 j⟩
  rw [View.read_apply]
  have hemb : ((cfg5.win 3).blk t).view.emb (ix2 p q) = ix2 (⟨1024 * (t.val / 16) + p.val, by have := p.isLt; omega⟩ : Fin 16384) q :=
    funext fun a => Fin.ext (by
      match a with
      | ⟨0, _⟩ => show win5_3.index t (0 : Fin 2) * 1024 + 1 * p.val = 1024 * (t.val / 16) + p.val; omega
      | ⟨1, _⟩ => show win5_3.index t (1 : Fin 2) * 512 + 1 * q.val = q.val; omega)
  show (outsAt5 V c t.val t.isLt).1 (ix2 p q) = Cert.Spec.gc (adj_r5 V c) (sup_r5 V c) (bias_r5 V c) (((cfg5.win 3).blk t).view.emb (ix2 p q))
  rw [hemb, Cert.Spec.gc_apply]
  exact out_r5 V c t h1 p q _ rfl

theorem cover_r5 (c : Dev nD) (i : S16384x512.Idx) :
    ∃ t : Fin cfg5.N, (cfg5.win 3).flush t = true ∧ i ∈ ((cfg5.win 3).blk t).view.set := by
  have hi0 : (i 0).val < 16384 := (i 0).isLt
  have hi1 : (i 1).val < 512 := (i 1).isLt
  have hN : cfg5.N = 256 := N_5
  have ht : 16 * ((i 0).val / 1024) + 15 < cfg5.N := by omega
  obtain ⟨-, -, -, -, -, -, e6, e7⟩ := idx_facts_r5 ⟨16 * ((i 0).val / 1024) + 15, ht⟩
  refine ⟨⟨16 * ((i 0).val / 1024) + 15, ht⟩, (flush5_3 _).mpr (by dsimp only; omega), ?_⟩
  change i ∈ ((View.whole (Pipeline.arrRef spec5 3)).slice (win5_3.rect ⟨16 * ((i 0).val / 1024) + 15, ht⟩)).set
  rw [View.set_slice_whole, Rect.mem_set_unit]
  intro a
  dsimp only at e6 e7
  match a with
  | ⟨0, _⟩ =>
    show win5_3.index ⟨16 * ((i 0).val / 1024) + 15, ht⟩ (0 : Fin 2) * 1024 ≤ (i 0).val ∧ (i 0).val < win5_3.index ⟨16 * ((i 0).val / 1024) + 15, ht⟩ (0 : Fin 2) * 1024 + 1024
    omega
  | ⟨1, _⟩ =>
    show win5_3.index ⟨16 * ((i 0).val / 1024) + 15, ht⟩ (1 : Fin 2) * 512 ≤ (i 1).val ∧ (i 1).val < win5_3.index ⟨16 * ((i 0).val / 1024) + 15, ht⟩ (1 : Fin 2) * 512 + 512
    omega

end AtIdeal

-- The sixteen block sums of a row are its whole sum; bias and clip are applied once, at the last step.
theorem reduceValue_r5 (V : (c : Dev nD) → (b : Ref sig .tc) → Buf (Elt Ideal) ((c : Thread nD τ).loc b)) (c : Dev nD) :
    (Cert.KernelIdeal.Hand.dat5 V c).arrAt 3 cfg5.N
      = Cert.Spec.gc (V c (Pipeline.arrRef spec5 0)) (V c (Pipeline.arrRef spec5 1)) (V c (Pipeline.arrRef spec5 2)) :=
  (Cert.KernelIdeal.Hand.dat5 V c).arrAt_eq_of_cover 3 _ (flushed_eq_r5 V c) (cover_r5 c)

end Cert.KernelIdeal.Val
-- ==== Proof.Chain.lean ====
import proofs.«149749_j996432413323_1_alg».proof.Proof.DenseValue0
import proofs.«149749_j996432413323_1_alg».proof.Proof.DenseValue2
import proofs.«149749_j996432413323_1_alg».proof.Proof.DenseValue4
import proofs.«149749_j996432413323_1_alg».proof.Proof.DenseValue6
import proofs.«149749_j996432413323_1_alg».proof.Proof.ReduceValue1
import proofs.«149749_j996432413323_1_alg».proof.Proof.ReduceValue3
import proofs.«149749_j996432413323_1_alg».proof.Proof.ReduceValue5
import proofs.«149749_j996432413323_1_alg».proof.Proof.Stages
import proofs.«149749_j996432413323_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)
open scoped BigOperators

variable (m : (ℓ : Loc nD τ sig) → Buf (Elt Ideal) ℓ)

theorem B1_of (c : Dev nD) (r : Ref sig .tc) (h : r ∉ hostOps0_W) : B1 m c r = m ((c.tc : Thread nD τ).loc r) :=
  StableHlo.after_of_writes_sub hostOps0 _ hostOps0_writes h
theorem B2_of (c : Dev nD) (r : Ref sig .tc) (h : r ∉ ([main_v2] : List (Ref sig .tc))) : B2 m c r = B1 m c r := by
  unfold B2
  exact Function.update_of_ne (StableHlo.devRef_ne_of_ne (List.ne_of_not_mem_cons h)) _ _
theorem B2_out (c : Dev nD) : B2 m c main_v2 = o2 m c := by
  unfold B2
  exact Function.update_self _ _ _
theorem B3_of (c : Dev nD) (r : Ref sig .tc) (h : r ∉ hostOps1_W) : B3 m c r = B2 m c r :=
  StableHlo.after_of_writes_sub hostOps1 _ hostOps1_writes h
theorem B4_of (c : Dev nD) (r : Ref sig .tc) (h : r ∉ ([main_v4] : List (Ref sig .tc))) : B4 m c r = B3 m c r := by
  unfold B4
  exact Function.update_of_ne (StableHlo.devRef_ne_of_ne (List.ne_of_not_mem_cons h)) _ _
theorem B4_out (c : Dev nD) : B4 m c main_v4 = o4 m c := by
  unfold B4
  exact Function.update_self _ _ _
theorem B5_of (c : Dev nD) (r : Ref sig .tc) (h : r ∉ hostOps2_W) : B5 m c r = B4 m c r :=
  StableHlo.after_of_writes_sub hostOps2 _ hostOps2_writes h
theorem B6_of (c : Dev nD) (r : Ref sig .tc) (h : r ∉ ([main_v11] : List (Ref sig .tc))) : B6 m c r = B5 m c r := by
  unfold B6
  exact Function.update_of_ne (StableHlo.devRef_ne_of_ne (List.ne_of_not_mem_cons h)) _ _
theorem B6_out (c : Dev nD) : B6 m c main_v11 = o6 m c := by
  unfold B6
  exact Function.update_self _ _ _
theorem B7_of (c : Dev nD) (r : Ref sig .tc) (h : r ∉ hostOps3_W) : B7 m c r = B6 m c r :=
  StableHlo.after_of_writes_sub hostOps3 _ hostOps3_writes h
theorem B8_of (c : Dev nD) (r : Ref sig .tc) (h : r ∉ ([main_v13] : List (Ref sig .tc))) : B8 m c r = B7 m c r := by
  unfold B8
  exact Function.update_of_ne (StableHlo.devRef_ne_of_ne (List.ne_of_not_mem_cons h)) _ _
theorem B8_out (c : Dev nD) : B8 m c main_v13 = o8 m c := by
  unfold B8
  exact Function.update_self _ _ _
theorem B9_of (c : Dev nD) (r : Ref sig .tc) (h : r ∉ hostOps4_W) : B9 m c r = B8 m c r :=
  StableHlo.after_of_writes_sub hostOps4 _ hostOps4_writes h
theorem B10_of (c : Dev nD) (r : Ref sig .tc) (h : r ∉ ([main_v20] : List (Ref sig .tc))) : B10 m c r = B9 m c r := by
  unfold B10
  exact Function.update_of_ne (StableHlo.devRef_ne_of_ne (List.ne_of_not_mem_cons h)) _ _
theorem B10_out (c : Dev nD) : B10 m c main_v20 = o10 m c := by
  unfold B10
  exact Function.update_self _ _ _
theorem B11_of (c : Dev nD) (r : Ref sig .tc) (h : r ∉ hostOps5_W) : B11 m c r = B10 m c r :=
  StableHlo.after_of_writes_sub hostOps5 _ hostOps5_writes h
theorem B12_of (c : Dev nD) (r : Ref sig .tc) (h : r ∉ ([main_v22] : List (Ref sig .tc))) : B12 m c r = B11 m c r := by
  unfold B12
  exact Function.update_of_ne (StableHlo.devRef_ne_of_ne (List.ne_of_not_mem_cons h)) _ _
theorem B12_out (c : Dev nD) : B12 m c main_v22 = o12 m c := by
  unfold B12
  exact Function.update_self _ _ _
theorem B13_of (c : Dev nD) (r : Ref sig .tc) (h : r ∉ hostOps6_W) : B13 m c r = B12 m c r :=
  StableHlo.after_of_writes_sub hostOps6 _ hostOps6_writes h

theorem B1_main_arg0 (c : Dev nD) : B1 m c main_arg0 = m ((c.tc : Thread nD τ).loc main_arg0) :=
  (B1_of m c main_arg0 (by decide))
theorem B1_main_arg2 (c : Dev nD) : B1 m c main_arg2 = m ((c.tc : Thread nD τ).loc main_arg2) :=
  (B1_of m c main_arg2 (by decide))
theorem B3_main_arg1 (c : Dev nD) : B3 m c main_arg1 = m ((c.tc : Thread nD τ).loc main_arg1) :=
  (B3_of m c main_arg1 (by decide)).trans <| (B2_of m c main_arg1 (by decide)).trans <| (B1_of m c main_arg1 (by decide))
theorem B7_main_arg1 (c : Dev nD) : B7 m c main_arg1 = m ((c.tc : Thread nD τ).loc main_arg1) :=
  (B7_of m c main_arg1 (by decide)).trans <| (B6_of m c main_arg1 (by decide)).trans <| (B5_of m c main_arg1 (by decide)).trans <| (B4_of m c main_arg1 (by decide)).trans <| B3_main_arg1 m c
theorem B11_main_arg1 (c : Dev nD) : B11 m c main_arg1 = m ((c.tc : Thread nD τ).loc main_arg1) :=
  (B11_of m c main_arg1 (by decide)).trans <| (B10_of m c main_arg1 (by decide)).trans <| (B9_of m c main_arg1 (by decide)).trans <| (B8_of m c main_arg1 (by decide)).trans <| B7_main_arg1 m c
theorem B2_main_arg3 (c : Dev nD) : B2 m c main_arg3 = m ((c.tc : Thread nD τ).loc main_arg3) :=
  (B2_of m c main_arg3 (by decide)).trans <| (B1_of m c main_arg3 (by decide))
theorem B4_main_arg4 (c : Dev nD) : B4 m c main_arg4 = m ((c.tc : Thread nD τ).loc main_arg4) :=
  (B4_of m c main_arg4 (by decide)).trans <| (B3_of m c main_arg4 (by decide)).trans <| (B2_of m c main_arg4 (by decide)).trans <| (B1_of m c main_arg4 (by decide))
theorem B8_main_arg4 (c : Dev nD) : B8 m c main_arg4 = m ((c.tc : Thread nD τ).loc main_arg4) :=
  (B8_of m c main_arg4 (by decide)).trans <| (B7_of m c main_arg4 (by decide)).trans <| (B6_of m c main_arg4 (by decide)).trans <| (B5_of m c main_arg4 (by decide)).trans <| B4_main_arg4 m c
theorem B4_main_arg5 (c : Dev nD) : B4 m c main_arg5 = m ((c.tc : Thread nD τ).loc main_arg5) :=
  (B4_of m c main_arg5 (by decide)).trans <| (B3_of m c main_arg5 (by decide)).trans <| (B2_of m c main_arg5 (by decide)).trans <| (B1_of m c main_arg5 (by decide))
theorem B8_main_arg5 (c : Dev nD) : B8 m c main_arg5 = m ((c.tc : Thread nD τ).loc main_arg5) :=
  (B8_of m c main_arg5 (by decide)).trans <| (B7_of m c main_arg5 (by decide)).trans <| (B6_of m c main_arg5 (by decide)).trans <| (B5_of m c main_arg5 (by decide)).trans <| B4_main_arg5 m c
theorem B13_main_arg6 (c : Dev nD) : B13 m c main_arg6 = m ((c.tc : Thread nD τ).loc main_arg6) :=
  (B13_of m c main_arg6 (by decide)).trans <| (B12_of m c main_arg6 (by decide)).trans <| (B11_of m c main_arg6 (by decide)).trans <| (B10_of m c main_arg6 (by decide)).trans <| (B9_of m c main_arg6 (by decide)).trans <| (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide))
theorem B12_main_arg7 (c : Dev nD) : B12 m c main_arg7 = m ((c.tc : Thread nD τ).loc main_arg7) :=
  (B12_of m c main_arg7 (by decide)).trans <| (B11_of m c main_arg7 (by decide)).trans <| (B10_of m c main_arg7 (by decide)).trans <| (B9_of m c main_arg7 (by decide)).trans <| (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide))

theorem chain_exists_ix2 {a b : Nat} (idx : (⟨2, ![a, b]⟩ : Shape).Idx) : ∃ (i : Fin a) (j : Fin b), idx = ix2 i j :=
  ⟨idx 0, idx 1, eq_ix2 idx⟩

theorem zrow_eq :
    (shapeCast S1x512 (broadcastInDim S512 ![] bcast_S_S512 (constant (F := Ideal) S_ .f32 0x00000000#32)) shapeCasts_S512_S1x512
      : Vec Ideal S1x512 .f32) = Cert.Spec.zeroRow 512 := by
  funext idx
  obtain ⟨u, j, rfl⟩ := chain_exists_ix2 idx
  refine (shapeCast_a_1a_apply _ shapeCasts_S512_S1x512 u j).trans ?_
  refine (broadcastInDim_apply ![] bcast_S_S512 _ (ix1 j) ix0 (fun a => a.elim0)).trans ?_
  exact Ideal.ofBits_zero_f32

theorem row512_eq (b : Vec Ideal S512 .f32) :
    (shapeCast S1x512 b shapeCasts_S512_S1x512 : Vec Ideal S1x512 .f32) = Cert.Spec.row b := by
  funext idx
  obtain ⟨u, j, rfl⟩ := chain_exists_ix2 idx
  exact shapeCast_a_1a_apply _ shapeCasts_S512_S1x512 u j

theorem row128_eq (b : Vec Ideal S128 .f32) :
    (shapeCast S1x128 b shapeCasts_S128_S1x128 : Vec Ideal S1x128 .f32) = Cert.Spec.row b := by
  funext idx
  obtain ⟨u, j, rfl⟩ := chain_exists_ix2 idx
  exact shapeCast_a_1a_apply _ shapeCasts_S128_S1x128 u j

theorem wslice0_eq (a : Vec Ideal S2x512x512 .f32) :
    (shapeCast S512x512 (extractStridedSlice S1x512x512 ![0, 0, 0] a slices_S2x512x512_S1x512x512_0_0_0) shapeCasts_S1x512x512_S512x512
      : Vec Ideal S512x512 .f32) = Cert.Spec.wSlice 0 a := by
  funext idx
  obtain ⟨i, j, rfl⟩ := chain_exists_ix2 idx
  refine (shapeCast_1ab_ab_apply _ shapeCasts_S1x512x512_S512x512 i j).trans ?_
  exact extractStridedSlice_apply ![0, 0, 0] a slices_S2x512x512_S1x512x512_0_0_0 (ix3 (0 : Fin 1) i j) (ix3 (0 : Fin 2) i j)
    (fun d => match d with
      | ⟨0, _⟩ => rfl
      | ⟨1, _⟩ => (Nat.zero_add _).symm
      | ⟨2, _⟩ => (Nat.zero_add _).symm)

theorem wslice1_eq (a : Vec Ideal S2x512x512 .f32) :
    (shapeCast S512x512 (extractStridedSlice S1x512x512 ![1, 0, 0] a slices_S2x512x512_S1x512x512_1_0_0) shapeCasts_S1x512x512_S512x512
      : Vec Ideal S512x512 .f32) = Cert.Spec.wSlice 1 a := by
  funext idx
  obtain ⟨i, j, rfl⟩ := chain_exists_ix2 idx
  refine (shapeCast_1ab_ab_apply _ shapeCasts_S1x512x512_S512x512 i j).trans ?_
  exact extractStridedSlice_apply ![1, 0, 0] a slices_S2x512x512_S1x512x512_1_0_0 (ix3 (0 : Fin 1) i j) (ix3 (1 : Fin 2) i j)
    (fun d => match d with
      | ⟨0, _⟩ => rfl
      | ⟨1, _⟩ => (Nat.zero_add _).symm
      | ⟨2, _⟩ => (Nat.zero_add _).symm)

theorem bslice0_eq (a : Vec Ideal S2x512 .f32) :
    (shapeCast S512 (extractStridedSlice S1x512 ![0, 0] a slices_S2x512_S1x512_0_0) shapeCasts_S1x512_S512
      : Vec Ideal S512 .f32) = Cert.Spec.bSlice 0 a := by
  funext idx
  obtain ⟨j, rfl⟩ : ∃ j : Fin 512, idx = ix1 j := ⟨idx 0, eq_ix1 idx⟩
  refine (shapeCast_1a_a_apply _ shapeCasts_S1x512_S512 j).trans ?_
  exact slice2_axis0_apply 0 a slices_S2x512_S1x512_0_0 (0 : Fin 1) j (0 : Fin 2) rfl

theorem bslice1_eq (a : Vec Ideal S2x512 .f32) :
    (shapeCast S512 (extractStridedSlice S1x512 ![1, 0] a slices_S2x512_S1x512_1_0) shapeCasts_S1x512_S512
      : Vec Ideal S512 .f32) = Cert.Spec.bSlice 1 a := by
  funext idx
  obtain ⟨j, rfl⟩ : ∃ j : Fin 512, idx = ix1 j := ⟨idx 0, eq_ix1 idx⟩
  refine (shapeCast_1a_a_apply _ shapeCasts_S1x512_S512 j).trans ?_
  exact slice2_axis0_apply 1 a slices_S2x512_S1x512_1_0 (0 : Fin 1) j (1 : Fin 2) rfl

theorem B1_main_v1 (c : Dev nD) : B1 m c main_v1 = Cert.Spec.zeroRow 512 := by
  refine Eq.trans ?_ zrow_eq
  show StableHlo.after hostOps0 _ (Proc.devRef .tc main_v1) = _
  after_results
  rfl

theorem B3_main_v3 (c : Dev nD) : B3 m c main_v3 = Cert.Spec.row (m ((c.tc : Thread nD τ).loc main_arg3)) := by
  refine Eq.trans ?_ ((row512_eq _).trans (congrArg Cert.Spec.row (B2_main_arg3 m c)))
  show StableHlo.after hostOps1 _ (Proc.devRef .tc main_v3) = _
  after_results
  rfl

theorem B5_main_v6 (c : Dev nD) : B5 m c main_v6 = Cert.Spec.wSlice 0 (m ((c.tc : Thread nD τ).loc main_arg4)) := by
  refine Eq.trans ?_ ((wslice0_eq _).trans (congrArg (Cert.Spec.wSlice 0) (B4_main_arg4 m c)))
  show StableHlo.after hostOps2 _ (Proc.devRef .tc main_v6) = _
  after_results
  rfl

theorem B5_main_v8 (c : Dev nD) : B5 m c main_v8 = Cert.Spec.bSlice 0 (m ((c.tc : Thread nD τ).loc main_arg5)) := by
  refine Eq.trans ?_ ((bslice0_eq _).trans (congrArg (Cert.Spec.bSlice 0) (B4_main_arg5 m c)))
  show StableHlo.after hostOps2 _ (Proc.devRef .tc main_v8) = _
  after_results
  rfl

theorem B5_main_v10 (c : Dev nD) : B5 m c main_v10 = Cert.Spec.zeroRow 512 := by
  refine Eq.trans ?_ zrow_eq
  show StableHlo.after hostOps2 _ (Proc.devRef .tc main_v10) = _
  after_results
  rfl

theorem B7_main_v12 (c : Dev nD) :
    B7 m c main_v12 = Cert.Spec.row (Cert.Spec.bSlice 0 (m ((c.tc : Thread nD τ).loc main_arg5))) := by
  refine Eq.trans ?_ ((row512_eq _).trans (congrArg Cert.Spec.row ((B6_of m c main_v8 (by decide)).trans (B5_main_v8 m c))))
  show StableHlo.after hostOps3 _ (Proc.devRef .tc main_v12) = _
  after_results
  rfl

theorem B9_main_v15 (c : Dev nD) : B9 m c main_v15 = Cert.Spec.wSlice 1 (m ((c.tc : Thread nD τ).loc main_arg4)) := by
  refine Eq.trans ?_ ((wslice1_eq _).trans (congrArg (Cert.Spec.wSlice 1) (B8_main_arg4 m c)))
  show StableHlo.after hostOps4 _ (Proc.devRef .tc main_v15) = _
  after_results
  rfl

theorem B9_main_v17 (c : Dev nD) : B9 m c main_v17 = Cert.Spec.bSlice 1 (m ((c.tc : Thread nD τ).loc main_arg5)) := by
  refine Eq.trans ?_ ((bslice1_eq _).trans (congrArg (Cert.Spec.bSlice 1) (B8_main_arg5 m c)))
  show StableHlo.after hostOps4 _ (Proc.devRef .tc main_v17) = _
  after_results
  rfl

theorem B9_main_v19 (c : Dev nD) : B9 m c main_v19 = Cert.Spec.zeroRow 512 := by
  refine Eq.trans ?_ zrow_eq
  show StableHlo.after hostOps4 _ (Proc.devRef .tc main_v19) = _
  after_results
  rfl

theorem B11_main_v21 (c : Dev nD) :
    B11 m c main_v21 = Cert.Spec.row (Cert.Spec.bSlice 1 (m ((c.tc : Thread nD τ).loc main_arg5))) := by
  refine Eq.trans ?_ ((row512_eq _).trans (congrArg Cert.Spec.row ((B10_of m c main_v17 (by decide)).trans (B9_main_v17 m c))))
  show StableHlo.after hostOps5 _ (Proc.devRef .tc main_v21) = _
  after_results
  rfl

theorem B13_main_v23 (c : Dev nD) : B13 m c main_v23 = Cert.Spec.row (m ((c.tc : Thread nD τ).loc main_arg7)) := by
  refine Eq.trans ?_ ((row128_eq _).trans (congrArg Cert.Spec.row (B12_main_arg7 m c)))
  show StableHlo.after hostOps6 _ (Proc.devRef .tc main_v23) = _
  after_results
  rfl

abbrev argA0 (c : Dev nD) : Cert.Spec.A2 16384 512 := m ((c.tc : Thread nD τ).loc main_arg0)
abbrev argA1 (c : Dev nD) : Cert.Spec.A2 16384 16384 := m ((c.tc : Thread nD τ).loc main_arg1)
abbrev argA2 (c : Dev nD) : Cert.Spec.A2 512 512 := m ((c.tc : Thread nD τ).loc main_arg2)
abbrev argA3 (c : Dev nD) : Vec Ideal ⟨1, ![512]⟩ .f32 := m ((c.tc : Thread nD τ).loc main_arg3)
abbrev argA4 (c : Dev nD) : Vec Ideal ⟨3, ![2, 512, 512]⟩ .f32 := m ((c.tc : Thread nD τ).loc main_arg4)
abbrev argA5 (c : Dev nD) : Vec Ideal ⟨2, ![2, 512]⟩ .f32 := m ((c.tc : Thread nD τ).loc main_arg5)
abbrev argA6 (c : Dev nD) : Cert.Spec.A2 512 128 := m ((c.tc : Thread nD τ).loc main_arg6)
abbrev argA7 (c : Dev nD) : Vec Ideal ⟨1, ![128]⟩ .f32 := m ((c.tc : Thread nD τ).loc main_arg7)

abbrev hid1 (c : Dev nD) : Cert.Spec.A2 16384 512 := Cert.Spec.layer (argA1 m c) (argA0 m c) (argA2 m c) (Cert.Spec.row (argA3 m c))
abbrev hid2 (c : Dev nD) : Cert.Spec.A2 16384 512 :=
  Cert.Spec.layer (argA1 m c) (hid1 m c) (Cert.Spec.wSlice 0 (argA4 m c)) (Cert.Spec.row (Cert.Spec.bSlice 0 (argA5 m c)))
abbrev hid3 (c : Dev nD) : Cert.Spec.A2 16384 512 :=
  Cert.Spec.layer (argA1 m c) (hid2 m c) (Cert.Spec.wSlice 1 (argA4 m c)) (Cert.Spec.row (Cert.Spec.bSlice 1 (argA5 m c)))

theorem chain_dense_congr {n k p : Nat} {x x' : Cert.Spec.A2 n k} {w w' : Cert.Spec.A2 k p} {b b' : Cert.Spec.A2 1 p}
    (hx : x = x') (hw : w = w') (hb : b = b') : Cert.Spec.dense x w b = Cert.Spec.dense x' w' b' := by
  subst hx hw hb; rfl

theorem chain_gc_congr {n p : Nat} {adj adj' : Cert.Spec.A2 n n} {s s' : Cert.Spec.A2 n p} {b b' : Cert.Spec.A2 1 p}
    (ha : adj = adj') (hs : s = s') (hb : b = b') : Cert.Spec.gc adj s b = Cert.Spec.gc adj' s' b' := by
  subst ha hs hb; rfl

theorem o2_eq (c : Dev nD) : o2 m c = Cert.Spec.dense (argA0 m c) (argA2 m c) (Cert.Spec.zeroRow 512) :=
  (denseValue_r0 (rd (B1 m)) c).trans (chain_dense_congr (B1_main_arg0 m c) (B1_main_arg2 m c) (B1_main_v1 m c))

theorem o4_eq (c : Dev nD) : o4 m c = hid1 m c :=
  (reduceValue_r1 (rd (B3 m)) c).trans (chain_gc_congr (B3_main_arg1 m c)
    (((B3_of m c main_v2 (by decide)).trans (B2_out m c)).trans (o2_eq m c)) (B3_main_v3 m c))

theorem o6_eq (c : Dev nD) : o6 m c = Cert.Spec.dense (hid1 m c) (Cert.Spec.wSlice 0 (argA4 m c)) (Cert.Spec.zeroRow 512) :=
  (denseValue_r2 (rd (B5 m)) c).trans (chain_dense_congr
    (((B5_of m c main_v4 (by decide)).trans (B4_out m c)).trans (o4_eq m c)) (B5_main_v6 m c) (B5_main_v10 m c))

theorem o8_eq (c : Dev nD) : o8 m c = hid2 m c :=
  (reduceValue_r3 (rd (B7 m)) c).trans (chain_gc_congr (B7_main_arg1 m c)
    (((B7_of m c main_v11 (by decide)).trans (B6_out m c)).trans (o6_eq m c)) (B7_main_v12 m c))

theorem o10_eq (c : Dev nD) : o10 m c = Cert.Spec.dense (hid2 m c) (Cert.Spec.wSlice 1 (argA4 m c)) (Cert.Spec.zeroRow 512) :=
  (denseValue_r4 (rd (B9 m)) c).trans (chain_dense_congr
    (((B9_of m c main_v13 (by decide)).trans (B8_out m c)).trans (o8_eq m c)) (B9_main_v15 m c) (B9_main_v19 m c))

theorem o12_eq (c : Dev nD) : o12 m c = hid3 m c :=
  (reduceValue_r5 (rd (B11 m)) c).trans (chain_gc_congr (B11_main_arg1 m c)
    (((B11_of m c main_v20 (by decide)).trans (B10_out m c)).trans (o10_eq m c)) (B11_main_v21 m c))

theorem o14_eq (c : Dev nD) : o14 m c = Cert.Spec.dense (hid3 m c) (argA6 m c) (Cert.Spec.row (argA7 m c)) :=
  (denseValue_r6 (rd (B13 m)) c).trans (chain_dense_congr
    (((B13_of m c main_v22 (by decide)).trans (B12_out m c)).trans (o12_eq m c)) (B13_main_arg6 m c) (B13_main_v23 m c))

-- Each region finds the arguments as launched, the small operands the host made, and the array the region before it left.
theorem result_eq (c : Dev nD) :
    Cert.KernelIdeal.Hand.outs m 14 main_v24 c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (outs_14 m c).trans (o14_eq m c)

end Cert.KernelIdeal.Val

end
-- ==== Proof.lean ====
/-
  A three-layer graph-convolution network. Layer by layer the kernel program forms the support `h · W` by a row-blocked
  product, then `max (adj · support + b) 0` by a product blocked 16 × 16 over the adjacency matrix, and last `h · Wout + bout`;
  the reference does the same with whole-array products. Over the extended reals both are `Cert.Spec.result` of the eight
  arguments: a sum over 16384 terms is the sum of its sixteen block sums, `0 + x = x`, `x + 0 = x`. No finiteness is used.
-/
import proofs.«149749_j996432413323_1_alg».proof.Defs
import proofs.«149749_j996432413323_1_alg».proof.Proof.Gen.Kernel
import proofs.«149749_j996432413323_1_alg».proof.Proof.Gen.KernelIdeal
import proofs.«149749_j996432413323_1_alg».proof.Proof.Gen.ReferenceIdeal
import proofs.«149749_j996432413323_1_alg».proof.Proof.Gen.Pre_finite_inputs
import proofs.«149749_j996432413323_1_alg».proof.Proof.Run
import proofs.«149749_j996432413323_1_alg».proof.Proof.RefValue
import proofs.«149749_j996432413323_1_alg».proof.Proof.Chain
import Idealize.ShloMosaic.Adequacy
import Idealize.ShloMosaic.Init

noncomputable section

namespace Cert.Proof

open Idealize.ShloMosaic Idealize.ShloMosaic.TcCoe Idealize.SL.Sem

theorem frame_ki : Cert.frame_KernelIdeal := fun m ρ _ => Cert.KernelIdeal.Hand.frame (F := Ideal) m ρ

-- The word-level program is the idealized program's text, declaration by declaration, and the frame is proved for every
-- float instance: unfolding both programs, the frame at the word instance is the statement wanted.
set_option maxHeartbeats 8000000 in
set_option smartUnfolding false in
theorem frame_k : Cert.frame_Kernel := fun m ρ _ => Cert.KernelIdeal.Hand.frame (F := Bits) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Val.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
